-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![2048, 4096]⟩ (Layout.meshBlock [2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 4096]⟩ ⟨2, ![1024, 4096]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x1024 : Shape := ⟨2, ![1024, 1024]⟩
abbrev S1024x4096 : Shape := ⟨2, ![1024, 4096]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S1024x1024 .f32) (main_arg1 : FVec F S1024x4096 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  main_v8
-- ==== Pre_finite_inputs_ReferenceIdeal.lean ====
abbrev S2048x1024 : Shape := ⟨2, ![2048, 1024]⟩
abbrev S2048x4096 : Shape := ⟨2, ![2048, 4096]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_

variable [Facts]

def fn {F : FTy → Type} [FloatOps F] (main_arg0 : FVec F S2048x1024 .f32) (main_arg1 : FVec F S2048x4096 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  main_v8
-- ==== Kernel.lean ====
abbrev S1024x1024 : Shape := ⟨2, ![1024, 1024]⟩
abbrev S1024x4096 : Shape := ⟨2, ![1024, 4096]⟩
abbrev S512x4096 : Shape := ⟨2, ![512, 4096]⟩
abbrev S1024x2048 : Shape := ⟨2, ![1024, 2048]⟩
abbrev S512x2048 : Shape := ⟨2, ![512, 2048]⟩
abbrev S_ : Shape := ⟨0, ![]⟩
abbrev S4 : Shape := ⟨1, ![4]⟩
abbrev S16 : Shape := ⟨1, ![16]⟩
abbrev S1 : Shape := ⟨1, ![1]⟩
abbrev S1024x512 : Shape := ⟨2, ![1024, 512]⟩
abbrev S512x1024 : Shape := ⟨2, ![512, 1024]⟩
abbrev S512x512 : Shape := ⟨2, ![512, 512]⟩
abbrev S512x128 : Shape := ⟨2, ![512, 128]⟩

abbrev nBuf : Space → Nat
  | .hbm => 3
  | .vmem => 8
  | .smem => 0
  | _ => 0

abbrev bufTy : (tb : Table) → Fin (tcTables nBuf tb) → BufTy
  | .hbm, ⟨0, _⟩ => ⟨S1024x1024, .f32⟩
  | .hbm, ⟨1, _⟩ => ⟨S1024x4096, .f32⟩
  | .hbm, ⟨2, _⟩ => ⟨S512x4096, .f32⟩
  | .local _ .vmem, ⟨0, _⟩ => ⟨S512x4096, .f32⟩
  | .local _ .vmem, ⟨1, _⟩ => ⟨S1024x1024, .f32⟩
  | .local _ .vmem, ⟨2, _⟩ => ⟨S1024x2048, .f32⟩
  | .local _ .vmem, ⟨3, _⟩ => ⟨S512x2048, .bf16⟩
  | .local _ .vmem, ⟨4, _⟩ => ⟨S512x2048, .f32⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 2 → Nat :=
  let c0_i32_5 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  let v7 : BitVec 32 := Scalar.addi v6 c0_i32
  ![0, v7.toNat]
def k0_dev1 (d0 : Dev nD) : Nat :=
  let c0_i32_23 : BitVec 32 := 0#32
  let c1_i32_20 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v31 : BitVec 32 := Scalar.subi c1_i32_20 v2
  let c2_i32_22 : BitVec 32 := 2#32
  let v32 : BitVec 32 := Scalar.muli v31 c2_i32_22
  let v33 : BitVec 32 := Scalar.addi c0_i32_23 v32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_24 : BitVec 32 := 1#32
  let v34 : BitVec 32 := Scalar.muli v5 c1_i32_24
  let v35 : BitVec 32 := Scalar.addi v33 v34
  v35.toNat
def k0_dev2 (d0 : Dev nD) : Nat :=
  let c0_i32_28 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_27 : BitVec 32 := 2#32
  let v37 : BitVec 32 := Scalar.muli v2 c2_i32_27
  let v38 : BitVec 32 := Scalar.addi c0_i32_28 v37
  let c1_i32_25 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v36 : BitVec 32 := Scalar.subi c1_i32_25 v5
  let c1_i32_29 : BitVec 32 := 1#32
  let v39 : BitVec 32 := Scalar.muli v36 c1_i32_29
  let v40 : BitVec 32 := Scalar.addi v38 v39
  v40.toNat
def k0_off2 (d0 : Dev nD) : Fin 2 → Nat :=
  let c0 : Index := 0#32
  let c1_i32_30 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v41 : BitVec 32 := Scalar.subi c1_i32_30 v2
  let c512_i32_31 : BitVec 32 := 512#32
  let v42 : BitVec 32 := Scalar.muli v41 c512_i32_31
  let v43 : Index := Scalar.indexCast v42
  ![0, v43.toNat]
def k0_off3 (d0 : Dev nD) : Fin 2 → Nat :=
  let c0_33 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_32 : BitVec 32 := 512#32
  let v46 : BitVec 32 := Scalar.muli v2 c512_i32_32
  let v47 : Index := Scalar.indexCast v46
  ![0, v47.toNat]
def k0_dev3 (d0 : Dev nD) : Nat :=
  let c0_i32_47 : BitVec 32 := 0#32
  let c1_i32_43 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v60 : BitVec 32 := Scalar.subi c1_i32_43 v2
  let c2_i32_46 : BitVec 32 := 2#32
  let v61 : BitVec 32 := Scalar.muli v60 c2_i32_46
  let v62 : BitVec 32 := Scalar.addi c0_i32_47 v61
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_48 : BitVec 32 := 1#32
  let v63 : BitVec 32 := Scalar.muli v5 c1_i32_48
  let v64 : BitVec 32 := Scalar.addi v62 v63
  v64.toNat
def k0_dev4 (d0 : Dev nD) : Nat :=
  let c0_i32_57 : BitVec 32 := 0#32
  let c1_i32_53 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v71 : BitVec 32 := Scalar.subi c1_i32_53 v2
  let c2_i32_56 : BitVec 32 := 2#32
  let v72 : BitVec 32 := Scalar.muli v71 c2_i32_56
  let v73 : BitVec 32 := Scalar.addi c0_i32_57 v72
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_58 : BitVec 32 := 1#32
  let v74 : BitVec 32 := Scalar.muli v5 c1_i32_58
  let v75 : BitVec 32 := Scalar.addi v73 v74
  v75.toNat
def k0_dev5 (d0 : Dev nD) : Nat :=
  let c0_i32_66 : BitVec 32 := 0#32
  let c1_i32_62 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v82 : BitVec 32 := Scalar.subi c1_i32_62 v2
  let c2_i32_65 : BitVec 32 := 2#32
  let v83 : BitVec 32 := Scalar.muli v82 c2_i32_65
  let v84 : BitVec 32 := Scalar.addi c0_i32_66 v83
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_67 : BitVec 32 := 1#32
  let v85 : BitVec 32 := Scalar.muli v5 c1_i32_67
  let v86 : BitVec 32 := Scalar.addi v84 v85
  v86.toNat
def k0_dev6 (d0 : Dev nD) : Nat :=
  let c0_i32_75 : BitVec 32 := 0#32
  let c1_i32_71 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v93 : BitVec 32 := Scalar.subi c1_i32_71 v2
  let c2_i32_74 : BitVec 32 := 2#32
  let v94 : BitVec 32 := Scalar.muli v93 c2_i32_74
  let v95 : BitVec 32 := Scalar.addi c0_i32_75 v94
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_76 : BitVec 32 := 1#32
  let v96 : BitVec 32 := Scalar.muli v5 c1_i32_76
  let v97 : BitVec 32 := Scalar.addi v95 v96
  v97.toNat
def k0_dev7 (d0 : Dev nD) : Nat :=
  let c0_i32_91 : BitVec 32 := 0#32
  let c1_i32_88 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v114 : BitVec 32 := Scalar.subi c1_i32_88 v2
  let c2_i32_90 : BitVec 32 := 2#32
  let v115 : BitVec 32 := Scalar.muli v114 c2_i32_90
  let v116 : BitVec 32 := Scalar.addi c0_i32_91 v115
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_92 : BitVec 32 := 1#32
  let v117 : BitVec 32 := Scalar.muli v5 c1_i32_92
  let v118 : BitVec 32 := Scalar.addi v116 v117
  v118.toNat
def k0_dev8 (d0 : Dev nD) : Nat :=
  let c0_i32_100 : BitVec 32 := 0#32
  let c1_i32_97 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v125 : BitVec 32 := Scalar.subi c1_i32_97 v2
  let c2_i32_99 : BitVec 32 := 2#32
  let v126 : BitVec 32 := Scalar.muli v125 c2_i32_99
  let v127 : BitVec 32 := Scalar.addi c0_i32_100 v126
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_101 : BitVec 32 := 1#32
  let v128 : BitVec 32 := Scalar.muli v5 c1_i32_101
  let v129 : BitVec 32 := Scalar.addi v127 v128
  v129.toNat
def k0_dev9 (d0 : Dev nD) : Nat :=
  let c0_i32_108 : BitVec 32 := 0#32
  let c1_i32_105 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v136 : BitVec 32 := Scalar.subi c1_i32_105 v2
  let c2_i32_107 : BitVec 32 := 2#32
  let v137 : BitVec 32 := Scalar.muli v136 c2_i32_107
  let v138 : BitVec 32 := Scalar.addi c0_i32_108 v137
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_109 : BitVec 32 := 1#32
  let v139 : BitVec 32 := Scalar.muli v5 c1_i32_109
  let v140 : BitVec 32 := Scalar.addi v138 v139
  v140.toNat
def k0_dev10 (d0 : Dev nD) : Nat :=
  let c0_i32_116 : BitVec 32 := 0#32
  let c1_i32_113 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v147 : BitVec 32 := Scalar.subi c1_i32_113 v2
  let c2_i32_115 : BitVec 32 := 2#32
  let v148 : BitVec 32 := Scalar.muli v147 c2_i32_115
  let v149 : BitVec 32 := Scalar.addi c0_i32_116 v148
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_117 : BitVec 32 := 1#32
  let v150 : BitVec 32 := Scalar.muli v5 c1_i32_117
  let v151 : BitVec 32 := Scalar.addi v149 v150
  v151.toNat
def k0_dev11 (d0 : Dev nD) : Nat :=
  let c0_i32_132 : BitVec 32 := 0#32
  let c1_i32_129 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v168 : BitVec 32 := Scalar.subi c1_i32_129 v2
  let c2_i32_131 : BitVec 32 := 2#32
  let v169 : BitVec 32 := Scalar.muli v168 c2_i32_131
  let v170 : BitVec 32 := Scalar.addi c0_i32_132 v169
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_133 : BitVec 32 := 1#32
  let v171 : BitVec 32 := Scalar.muli v5 c1_i32_133
  let v172 : BitVec 32 := Scalar.addi v170 v171
  v172.toNat
def k0_dev12 (d0 : Dev nD) : Nat :=
  let c0_i32_141 : BitVec 32 := 0#32
  let c1_i32_138 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v179 : BitVec 32 := Scalar.subi c1_i32_138 v2
  let c2_i32_140 : BitVec 32 := 2#32
  let v180 : BitVec 32 := Scalar.muli v179 c2_i32_140
  let v181 : BitVec 32 := Scalar.addi c0_i32_141 v180
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_142 : BitVec 32 := 1#32
  let v182 : BitVec 32 := Scalar.muli v5 c1_i32_142
  let v183 : BitVec 32 := Scalar.addi v181 v182
  v183.toNat
def k0_dev13 (d0 : Dev nD) : Nat :=
  let c0_i32_149 : BitVec 32 := 0#32
  let c1_i32_146 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v190 : BitVec 32 := Scalar.subi c1_i32_146 v2
  let c2_i32_148 : BitVec 32 := 2#32
  let v191 : BitVec 32 := Scalar.muli v190 c2_i32_148
  let v192 : BitVec 32 := Scalar.addi c0_i32_149 v191
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_150 : BitVec 32 := 1#32
  let v193 : BitVec 32 := Scalar.muli v5 c1_i32_150
  let v194 : BitVec 32 := Scalar.addi v192 v193
  v194.toNat
def k0_dev14 (d0 : Dev nD) : Nat :=
  let c0_i32_157 : BitVec 32 := 0#32
  let c1_i32_154 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v201 : BitVec 32 := Scalar.subi c1_i32_154 v2
  let c2_i32_156 : BitVec 32 := 2#32
  let v202 : BitVec 32 := Scalar.muli v201 c2_i32_156
  let v203 : BitVec 32 := Scalar.addi c0_i32_157 v202
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_158 : BitVec 32 := 1#32
  let v204 : BitVec 32 := Scalar.muli v5 c1_i32_158
  let v205 : BitVec 32 := Scalar.addi v203 v204
  v205.toNat
def k0_dev15 (d0 : Dev nD) : Nat :=
  let c0_i32_173 : BitVec 32 := 0#32
  let c1_i32_170 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v222 : BitVec 32 := Scalar.subi c1_i32_170 v2
  let c2_i32_172 : BitVec 32 := 2#32
  let v223 : BitVec 32 := Scalar.muli v222 c2_i32_172
  let v224 : BitVec 32 := Scalar.addi c0_i32_173 v223
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_174 : BitVec 32 := 1#32
  let v225 : BitVec 32 := Scalar.muli v5 c1_i32_174
  let v226 : BitVec 32 := Scalar.addi v224 v225
  v226.toNat
def k0_dev16 (d0 : Dev nD) : Nat :=
  let c0_i32_182 : BitVec 32 := 0#32
  let c1_i32_179 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v233 : BitVec 32 := Scalar.subi c1_i32_179 v2
  let c2_i32_181 : BitVec 32 := 2#32
  let v234 : BitVec 32 := Scalar.muli v233 c2_i32_181
  let v235 : BitVec 32 := Scalar.addi c0_i32_182 v234
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_183 : BitVec 32 := 1#32
  let v236 : BitVec 32 := Scalar.muli v5 c1_i32_183
  let v237 : BitVec 32 := Scalar.addi v235 v236
  v237.toNat
def k0_dev17 (d0 : Dev nD) : Nat :=
  let c0_i32_190 : BitVec 32 := 0#32
  let c1_i32_187 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v244 : BitVec 32 := Scalar.subi c1_i32_187 v2
  let c2_i32_189 : BitVec 32 := 2#32
  let v245 : BitVec 32 := Scalar.muli v244 c2_i32_189
  let v246 : BitVec 32 := Scalar.addi c0_i32_190 v245
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_191 : BitVec 32 := 1#32
  let v247 : BitVec 32 := Scalar.muli v5 c1_i32_191
  let v248 : BitVec 32 := Scalar.addi v246 v247
  v248.toNat
def k0_dev18 (d0 : Dev nD) : Nat :=
  let c0_i32_198 : BitVec 32 := 0#32
  let c1_i32_195 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v255 : BitVec 32 := Scalar.subi c1_i32_195 v2
  let c2_i32_197 : BitVec 32 := 2#32
  let v256 : BitVec 32 := Scalar.muli v255 c2_i32_197
  let v257 : BitVec 32 := Scalar.addi c0_i32_198 v256
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_199 : BitVec 32 := 1#32
  let v258 : BitVec 32 := Scalar.muli v5 c1_i32_199
  let v259 : BitVec 32 := Scalar.addi v257 v258
  v259.toNat
def k0_off4 (d0 : Dev nD) (c0_i32_237 : BitVec 32) : Fin 2 → Nat :=
  let c0_238 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32_236 : BitVec 32 := 2048#32
  let v298 : BitVec 32 := Scalar.muli v5 c2048_i32_236
  let v299 : BitVec 32 := Scalar.addi v298 c0_i32_237
  let v300 : Index := Scalar.indexCast v299
  ![0, v300.toNat]
def k0_dev19 (d0 : Dev nD) : Nat :=
  let c0_i32_245 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_244 : BitVec 32 := 2#32
  let v307 : BitVec 32 := Scalar.muli v2 c2_i32_244
  let v308 : BitVec 32 := Scalar.addi c0_i32_245 v307
  let c1_i32_241 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v306 : BitVec 32 := Scalar.subi c1_i32_241 v5
  let c1_i32_246 : BitVec 32 := 1#32
  let v309 : BitVec 32 := Scalar.muli v306 c1_i32_246
  let v310 : BitVec 32 := Scalar.addi v308 v309
  v310.toNat
def k0_dev20 (d0 : Dev nD) : Nat :=
  let c0_i32_272 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_271 : BitVec 32 := 2#32
  let v338 : BitVec 32 := Scalar.muli v2 c2_i32_271
  let v339 : BitVec 32 := Scalar.addi c0_i32_272 v338
  let c1_i32_268 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v337 : BitVec 32 := Scalar.subi c1_i32_268 v5
  let c1_i32_273 : BitVec 32 := 1#32
  let v340 : BitVec 32 := Scalar.muli v337 c1_i32_273
  let v341 : BitVec 32 := Scalar.addi v339 v340
  v341.toNat
def k0_dev21 (d0 : Dev nD) : Nat :=
  let c0_i32_299 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_298 : BitVec 32 := 2#32
  let v369 : BitVec 32 := Scalar.muli v2 c2_i32_298
  let v370 : BitVec 32 := Scalar.addi c0_i32_299 v369
  let c1_i32_295 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v368 : BitVec 32 := Scalar.subi c1_i32_295 v5
  let c1_i32_300 : BitVec 32 := 1#32
  let v371 : BitVec 32 := Scalar.muli v368 c1_i32_300
  let v372 : BitVec 32 := Scalar.addi v370 v371
  v372.toNat
def k0_dev22 (d0 : Dev nD) : Nat :=
  let c0_i32_326 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_325 : BitVec 32 := 2#32
  let v400 : BitVec 32 := Scalar.muli v2 c2_i32_325
  let v401 : BitVec 32 := Scalar.addi c0_i32_326 v400
  let c1_i32_322 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v399 : BitVec 32 := Scalar.subi c1_i32_322 v5
  let c1_i32_327 : BitVec 32 := 1#32
  let v402 : BitVec 32 := Scalar.muli v399 c1_i32_327
  let v403 : BitVec 32 := Scalar.addi v401 v402
  v403.toNat
def k0_dev23 (d0 : Dev nD) : Nat :=
  let c0_i32_354 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_353 : BitVec 32 := 2#32
  let v431 : BitVec 32 := Scalar.muli v2 c2_i32_353
  let v432 : BitVec 32 := Scalar.addi c0_i32_354 v431
  let c1_i32_350 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v430 : BitVec 32 := Scalar.subi c1_i32_350 v5
  let c1_i32_355 : BitVec 32 := 1#32
  let v433 : BitVec 32 := Scalar.muli v430 c1_i32_355
  let v434 : BitVec 32 := Scalar.addi v432 v433
  v434.toNat
def k0_dev24 (d0 : Dev nD) : Nat :=
  let c0_i32_381 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_380 : BitVec 32 := 2#32
  let v462 : BitVec 32 := Scalar.muli v2 c2_i32_380
  let v463 : BitVec 32 := Scalar.addi c0_i32_381 v462
  let c1_i32_377 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v461 : BitVec 32 := Scalar.subi c1_i32_377 v5
  let c1_i32_382 : BitVec 32 := 1#32
  let v464 : BitVec 32 := Scalar.muli v461 c1_i32_382
  let v465 : BitVec 32 := Scalar.addi v463 v464
  v465.toNat
def k0_dev25 (d0 : Dev nD) : Nat :=
  let c0_i32_408 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_407 : BitVec 32 := 2#32
  let v493 : BitVec 32 := Scalar.muli v2 c2_i32_407
  let v494 : BitVec 32 := Scalar.addi c0_i32_408 v493
  let c1_i32_404 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v492 : BitVec 32 := Scalar.subi c1_i32_404 v5
  let c1_i32_409 : BitVec 32 := 1#32
  let v495 : BitVec 32 := Scalar.muli v492 c1_i32_409
  let v496 : BitVec 32 := Scalar.addi v494 v495
  v496.toNat
def k0_dev26 (d0 : Dev nD) : Nat :=
  let c0_i32_435 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_434 : BitVec 32 := 2#32
  let v524 : BitVec 32 := Scalar.muli v2 c2_i32_434
  let v525 : BitVec 32 := Scalar.addi c0_i32_435 v524
  let c1_i32_431 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v523 : BitVec 32 := Scalar.subi c1_i32_431 v5
  let c1_i32_436 : BitVec 32 := 1#32
  let v526 : BitVec 32 := Scalar.muli v523 c1_i32_436
  let v527 : BitVec 32 := Scalar.addi v525 v526
  v527.toNat
def k0_dev27 (d0 : Dev nD) : Nat :=
  let c0_i32_463 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_462 : BitVec 32 := 2#32
  let v555 : BitVec 32 := Scalar.muli v2 c2_i32_462
  let v556 : BitVec 32 := Scalar.addi c0_i32_463 v555
  let c1_i32_459 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v554 : BitVec 32 := Scalar.subi c1_i32_459 v5
  let c1_i32_464 : BitVec 32 := 1#32
  let v557 : BitVec 32 := Scalar.muli v554 c1_i32_464
  let v558 : BitVec 32 := Scalar.addi v556 v557
  v558.toNat
def k0_dev28 (d0 : Dev nD) : Nat :=
  let c0_i32_490 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_489 : BitVec 32 := 2#32
  let v586 : BitVec 32 := Scalar.muli v2 c2_i32_489
  let v587 : BitVec 32 := Scalar.addi c0_i32_490 v586
  let c1_i32_486 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v585 : BitVec 32 := Scalar.subi c1_i32_486 v5
  let c1_i32_491 : BitVec 32 := 1#32
  let v588 : BitVec 32 := Scalar.muli v585 c1_i32_491
  let v589 : BitVec 32 := Scalar.addi v587 v588
  v589.toNat
def k0_dev29 (d0 : Dev nD) : Nat :=
  let c0_i32_517 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_516 : BitVec 32 := 2#32
  let v617 : BitVec 32 := Scalar.muli v2 c2_i32_516
  let v618 : BitVec 32 := Scalar.addi c0_i32_517 v617
  let c1_i32_513 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v616 : BitVec 32 := Scalar.subi c1_i32_513 v5
  let c1_i32_518 : BitVec 32 := 1#32
  let v619 : BitVec 32 := Scalar.muli v616 c1_i32_518
  let v620 : BitVec 32 := Scalar.addi v618 v619
  v620.toNat
def k0_dev30 (d0 : Dev nD) : Nat :=
  let c0_i32_544 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_543 : BitVec 32 := 2#32
  let v648 : BitVec 32 := Scalar.muli v2 c2_i32_543
  let v649 : BitVec 32 := Scalar.addi c0_i32_544 v648
  let c1_i32_540 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v647 : BitVec 32 := Scalar.subi c1_i32_540 v5
  let c1_i32_545 : BitVec 32 := 1#32
  let v650 : BitVec 32 := Scalar.muli v647 c1_i32_545
  let v651 : BitVec 32 := Scalar.addi v649 v650
  v651.toNat
def k0_dev31 (d0 : Dev nD) : Nat :=
  let c0_i32_572 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_571 : BitVec 32 := 2#32
  let v679 : BitVec 32 := Scalar.muli v2 c2_i32_571
  let v680 : BitVec 32 := Scalar.addi c0_i32_572 v679
  let c1_i32_568 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v678 : BitVec 32 := Scalar.subi c1_i32_568 v5
  let c1_i32_573 : BitVec 32 := 1#32
  let v681 : BitVec 32 := Scalar.muli v678 c1_i32_573
  let v682 : BitVec 32 := Scalar.addi v680 v681
  v682.toNat
def k0_dev32 (d0 : Dev nD) : Nat :=
  let c0_i32_599 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_598 : BitVec 32 := 2#32
  let v710 : BitVec 32 := Scalar.muli v2 c2_i32_598
  let v711 : BitVec 32 := Scalar.addi c0_i32_599 v710
  let c1_i32_595 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v709 : BitVec 32 := Scalar.subi c1_i32_595 v5
  let c1_i32_600 : BitVec 32 := 1#32
  let v712 : BitVec 32 := Scalar.muli v709 c1_i32_600
  let v713 : BitVec 32 := Scalar.addi v711 v712
  v713.toNat
def k0_dev33 (d0 : Dev nD) : Nat :=
  let c0_i32_626 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_625 : BitVec 32 := 2#32
  let v741 : BitVec 32 := Scalar.muli v2 c2_i32_625
  let v742 : BitVec 32 := Scalar.addi c0_i32_626 v741
  let c1_i32_622 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v740 : BitVec 32 := Scalar.subi c1_i32_622 v5
  let c1_i32_627 : BitVec 32 := 1#32
  let v743 : BitVec 32 := Scalar.muli v740 c1_i32_627
  let v744 : BitVec 32 := Scalar.addi v742 v743
  v744.toNat
def k0_dev34 (d0 : Dev nD) : Nat :=
  let c0_i32_653 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_652 : BitVec 32 := 2#32
  let v772 : BitVec 32 := Scalar.muli v2 c2_i32_652
  let v773 : BitVec 32 := Scalar.addi c0_i32_653 v772
  let c1_i32_649 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v771 : BitVec 32 := Scalar.subi c1_i32_649 v5
  let c1_i32_654 : BitVec 32 := 1#32
  let v774 : BitVec 32 := Scalar.muli v771 c1_i32_654
  let v775 : BitVec 32 := Scalar.addi v773 v774
  v775.toNat
def k0_off5 (d0 : Dev nD) (c0_i32_672 : BitVec 32) : Fin 2 → Nat :=
  let c0_673 : Index := 0#32
  let c1_i32_670 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v792 : BitVec 32 := Scalar.subi c1_i32_670 v5
  let c2048_i32_671 : BitVec 32 := 2048#32
  let v793 : BitVec 32 := Scalar.muli v792 c2048_i32_671
  let v794 : BitVec 32 := Scalar.addi v793 c0_i32_672
  let v795 : Index := Scalar.indexCast v794
  ![0, v795.toNat]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  inb_S4_S1_0 : ∀ a, (![0] : Fin 1 → Nat) a + S1.size a ≤ S4.size a
  squeezes_S1_S_ : S1.Squeezes S_
  inb_S1024x2048_S1024x512_0_0 : ∀ a, (![0, 0] : Fin 2 → Nat) a + S1024x512.size a ≤ S1024x2048.size a
  inb_S4_S1_1 : ∀ a, (![1] : Fin 1 → Nat) a + S1.size a ≤ S4.size a
  inb_S1024x2048_S1024x512_0_512 : ∀ a, (![0, 512] : Fin 2 → Nat) a + S1024x512.size a ≤ S1024x2048.size a
  inb_S4_S1_2 : ∀ a, (![2] : Fin 1 → Nat) a + S1.size a ≤ S4.size a
  inb_S1024x2048_S1024x512_0_1024 : ∀ a, (![0, 1024] : Fin 2 → Nat) a + S1024x512.size a ≤ S1024x2048.size a
  inb_S4_S1_3 : ∀ a, (![3] : Fin 1 → Nat) a + S1.size a ≤ S4.size a
  inb_S1024x2048_S1024x512_0_1536 : ∀ a, (![0, 1536] : Fin 2 → Nat) a + S1024x512.size a ≤ S1024x2048.size a
  hamt_1 : (1#32 : BitVec 32).msb = false
  h_S1024x512 : 0 < S1024x512.numel
  transposes_S1024x512_p1_0_S512x1024 : S1024x512.Transposes [1, 0] S512x1024
  hamt_2 : (2#32 : BitVec 32).msb = false
  bitsLt_bf16_f32 : FTy.bits .bf16 < FTy.bits .f32
  inb_S512x2048_S512x512_0_0 : ∀ a, (![0, 0] : Fin 2 → Nat) a + S512x512.size a ≤ S512x2048.size a
  h_S512x512 : 0 < S512x512.numel
  shapeCasts_S512x512_S512x512 : S512x512.ShapeCasts S512x512
  packedbf16_S512x2048_S512x512_0_0 : (Rect.unit (s := S512x2048) ![0, 0] S512x512.size inb_S512x2048_S512x512_0_0).PackedRows (EltTy.packing .bf16)
  inb_S16_S1_0 : ∀ a, (![0] : Fin 1 → Nat) a + S1.size a ≤ S16.size a
  inb_S512x2048_S512x128_0_0 : ∀ a, (![0, 0] : Fin 2 → Nat) a + S512x128.size a ≤ S512x2048.size a
  wordsbf16_S512x2048_S512x128_0_0 : (Rect.unit (s := S512x2048) ![0, 0] S512x128.size inb_S512x2048_S512x128_0_0).WholeWords (EltTy.packing .bf16)
  inb_S16_S1_1 : ∀ a, (![1] : Fin 1 → Nat) a + S1.size a ≤ S16.size a
  inb_S512x2048_S512x128_0_128 : ∀ a, (![0, 128] : Fin 2 → Nat) a + S512x128.size a ≤ S512x2048.size a
  wordsbf16_S512x2048_S512x128_0_128 : (Rect.unit (s := S512x2048) ![0, 128] S512x128.size inb_S512x2048_S512x128_0_128).WholeWords (EltTy.packing .bf16)
  inb_S16_S1_2 : ∀ a, (![2] : Fin 1 → Nat) a + S1.size a ≤ S16.size a
  inb_S512x2048_S512x128_0_256 : ∀ a, (![0, 256] : Fin 2 → Nat) a + S512x128.size a ≤ S512x2048.size a
  wordsbf16_S512x2048_S512x128_0_256 : (Rect.unit (s := S512x2048) ![0, 256] S512x128.size inb_S512x2048_S512x128_0_256).WholeWords (EltTy.packing .bf16)
  inb_S16_S1_3 : ∀ a, (![3] : Fin 1 → Nat) a + S1.size a ≤ S16.size a
  inb_S512x2048_S512x128_0_384 : ∀ a, (![0, 384] : Fin 2 → Nat) a + S512x128.size a ≤ S512x2048.size a
  wordsbf16_S512x2048_S512x128_0_384 : (Rect.unit (s := S512x2048) ![0, 384] S512x128.size inb_S512x2048_S512x128_0_384).WholeWords (EltTy.packing .bf16)
  inb_S512x2048_S512x512_0_512 : ∀ a, (![0, 512] : Fin 2 → Nat) a + S512x512.size a ≤ S512x2048.size a
  packedbf16_S512x2048_S512x512_0_512 : (Rect.unit (s := S512x2048) ![0, 512] S512x512.size inb_S512x2048_S512x512_0_512).PackedRows (EltTy.packing .bf16)
  inb_S16_S1_4 : ∀ a, (![4] : Fin 1 → Nat) a + S1.size a ≤ S16.size a
  inb_S512x2048_S512x128_0_512 : ∀ a, (![0, 512] : Fin 2 → Nat) a + S512x128.size a ≤ S512x2048.size a
  wordsbf16_S512x2048_S512x128_0_512 : (Rect.unit (s := S512x2048) ![0, 512] S512x128.size inb_S512x2048_S512x128_0_512).WholeWords (EltTy.packing .bf16)
  inb_S16_S1_5 : ∀ a, (![5] : Fin 1 → Nat) a + S1.size a ≤ S16.size a
  inb_S512x2048_S512x128_0_640 : ∀ a, (![0, 640] : Fin 2 → Nat) a + S512x128.size a ≤ S512x2048.size a
  wordsbf16_S512x2048_S512x128_0_640 : (Rect.unit (s := S512x2048) ![0, 640] S512x128.size inb_S512x2048_S512x128_0_640).WholeWords (EltTy.packing .bf16)
  inb_S16_S1_6 : ∀ a, (![6] : Fin 1 → Nat) a + S1.size a ≤ S16.size a
  inb_S512x2048_S512x128_0_768 : ∀ a, (![0, 768] : Fin 2 → Nat) a + S512x128.size a ≤ S512x2048.size a
  wordsbf16_S512x2048_S512x128_0_768 : (Rect.unit (s := S512x2048) ![0, 768] S512x128.size inb_S512x2048_S512x128_0_768).WholeWords (EltTy.packing .bf16)
  inb_S16_S1_7 : ∀ a, (![7] : Fin 1 → Nat) a + S1.size a ≤ S16.size a
  inb_S512x2048_S512x128_0_896 : ∀ a, (![0, 896] : Fin 2 → Nat) a + S512x128.size a ≤ S512x2048.size a
  wordsbf16_S512x2048_S512x128_0_896 : (Rect.unit (s := S512x2048) ![0, 896] S512x128.size inb_S512x2048_S512x128_0_896).WholeWords (EltTy.packing .bf16)
  inb_S512x2048_S512x512_0_1024 : ∀ a, (![0, 1024] : Fin 2 → Nat) a + S512x512.size a ≤ S512x2048.size a
  packedbf16_S512x2048_S512x512_0_1024 : (Rect.unit (s := S512x2048) ![0, 1024] S512x512.size inb_S512x2048_S512x512_0_1024).PackedRows (EltTy.packing .bf16)
  inb_S16_S1_8 : ∀ a, (![8] : Fin 1 → Nat) a + S1.size a ≤ S16.size a
  inb_S512x2048_S512x128_0_1024 : ∀ a, (![0, 1024] : Fin 2 → Nat) a + S512x128.size a ≤ S512x2048.size a
  wordsbf16_S512x2048_S512x128_0_1024 : (Rect.unit (s := S512x2048) ![0, 1024] S512x128.size inb_S512x2048_S512x128_0_1024).WholeWords (EltTy.packing .bf16)
  inb_S16_S1_9 : ∀ a, (![9] : Fin 1 → Nat) a + S1.size a ≤ S16.size a
  inb_S512x2048_S512x128_0_1152 : ∀ a, (![0, 1152] : Fin 2 → Nat) a + S512x128.size a ≤ S512x2048.size a
  wordsbf16_S512x2048_S512x128_0_1152 : (Rect.unit (s := S512x2048) ![0, 1152] S512x128.size inb_S512x2048_S512x128_0_1152).WholeWords (EltTy.packing .bf16)
  inb_S16_S1_10 : ∀ a, (![10] : Fin 1 → Nat) a + S1.size a ≤ S16.size a
  inb_S512x2048_S512x128_0_1280 : ∀ a, (![0, 1280] : Fin 2 → Nat) a + S512x128.size a ≤ S512x2048.size a
  wordsbf16_S512x2048_S512x128_0_1280 : (Rect.unit (s := S512x2048) ![0, 1280] S512x128.size inb_S512x2048_S512x128_0_1280).WholeWords (EltTy.packing .bf16)
  inb_S16_S1_11 : ∀ a, (![11] : Fin 1 → Nat) a + S1.size a ≤ S16.size a
  inb_S512x2048_S512x128_0_1408 : ∀ a, (![0, 1408] : Fin 2 → Nat) a + S512x128.size a ≤ S512x2048.size a
  wordsbf16_S512x2048_S512x128_0_1408 : (Rect.unit (s := S512x2048) ![0, 1408] S512x128.size inb_S512x2048_S512x128_0_1408).WholeWords (EltTy.packing .bf16)
  inb_S512x2048_S512x512_0_1536 : ∀ a, (![0, 1536] : Fin 2 → Nat) a + S512x512.size a ≤ S512x2048.size a
  packedbf16_S512x2048_S512x512_0_1536 : (Rect.unit (s := S512x2048) ![0, 1536] S512x512.size inb_S512x2048_S512x512_0_1536).PackedRows (EltTy.packing .bf16)
  inb_S16_S1_12 : ∀ a, (![12] : Fin 1 → Nat) a + S1.size a ≤ S16.size a
  inb_S512x2048_S512x128_0_1536 : ∀ a, (![0, 1536] : Fin 2 → Nat) a + S512x128.size a ≤ S512x2048.size a
  wordsbf16_S512x2048_S512x128_0_1536 : (Rect.unit (s := S512x2048) ![0, 1536] S512x128.size inb_S512x2048_S512x128_0_1536).WholeWords (EltTy.packing .bf16)
  inb_S16_S1_13 : ∀ a, (![13] : Fin 1 → Nat) a + S1.size a ≤ S16.size a
  inb_S512x2048_S512x128_0_1664 : ∀ a, (![0, 1664] : Fin 2 → Nat) a + S512x128.size a ≤ S512x2048.size a
  wordsbf16_S512x2048_S512x128_0_1664 : (Rect.unit (s := S512x2048) ![0, 1664] S512x128.size inb_S512x2048_S512x128_0_1664).WholeWords (EltTy.packing .bf16)
  inb_S16_S1_14 : ∀ a, (![14] : Fin 1 → Nat) a + S1.size a ≤ S16.size a
  inb_S512x2048_S512x128_0_1792 : ∀ a, (![0, 1792] : Fin 2 → Nat) a + S512x128.size a ≤ S512x2048.size a
  wordsbf16_S512x2048_S512x128_0_1792 : (Rect.unit (s := S512x2048) ![0, 1792] S512x128.size inb_S512x2048_S512x128_0_1792).WholeWords (EltTy.packing .bf16)
  inb_S16_S1_15 : ∀ a, (![15] : Fin 1 → Nat) a + S1.size a ≤ S16.size a
  inb_S512x2048_S512x128_0_1920 : ∀ a, (![0, 1920] : Fin 2 → Nat) a + S512x128.size a ≤ S512x2048.size a
  wordsbf16_S512x2048_S512x128_0_1920 : (Rect.unit (s := S512x2048) ![0, 1920] S512x128.size inb_S512x2048_S512x128_0_1920).WholeWords (EltTy.packing .bf16)
  h_S512x128 : 0 < S512x128.numel
  shapeCasts_S512x128_S512x128 : S512x128.ShapeCasts S512x128
  packedbf16_S512x2048_S512x128_0_0 : (Rect.unit (s := S512x2048) ![0, 0] S512x128.size inb_S512x2048_S512x128_0_0).PackedRows (EltTy.packing .bf16)
  packedbf16_S512x2048_S512x128_0_128 : (Rect.unit (s := S512x2048) ![0, 128] S512x128.size inb_S512x2048_S512x128_0_128).PackedRows (EltTy.packing .bf16)
  packedbf16_S512x2048_S512x128_0_256 : (Rect.unit (s := S512x2048) ![0, 256] S512x128.size inb_S512x2048_S512x128_0_256).PackedRows (EltTy.packing .bf16)
  packedbf16_S512x2048_S512x128_0_384 : (Rect.unit (s := S512x2048) ![0, 384] S512x128.size inb_S512x2048_S512x128_0_384).PackedRows (EltTy.packing .bf16)
  packedbf16_S512x2048_S512x128_0_512 : (Rect.unit (s := S512x2048) ![0, 512] S512x128.size inb_S512x2048_S512x128_0_512).PackedRows (EltTy.packing .bf16)
  packedbf16_S512x2048_S512x128_0_640 : (Rect.unit (s := S512x2048) ![0, 640] S512x128.size inb_S512x2048_S512x128_0_640).PackedRows (EltTy.packing .bf16)
  packedbf16_S512x2048_S512x128_0_768 : (Rect.unit (s := S512x2048) ![0, 768] S512x128.size inb_S512x2048_S512x128_0_768).PackedRows (EltTy.packing .bf16)
  packedbf16_S512x2048_S512x128_0_896 : (Rect.unit (s := S512x2048) ![0, 896] S512x128.size inb_S512x2048_S512x128_0_896).PackedRows (EltTy.packing .bf16)
  packedbf16_S512x2048_S512x128_0_1024 : (Rect.unit (s := S512x2048) ![0, 1024] S512x128.size inb_S512x2048_S512x128_0_1024).PackedRows (EltTy.packing .bf16)
  packedbf16_S512x2048_S512x128_0_1152 : (Rect.unit (s := S512x2048) ![0, 1152] S512x128.size inb_S512x2048_S512x128_0_1152).PackedRows (EltTy.packing .bf16)
  packedbf16_S512x2048_S512x128_0_1280 : (Rect.unit (s := S512x2048) ![0, 1280] S512x128.size inb_S512x2048_S512x128_0_1280).PackedRows (EltTy.packing .bf16)
  packedbf16_S512x2048_S512x128_0_1408 : (Rect.unit (s := S512x2048) ![0, 1408] S512x128.size inb_S512x2048_S512x128_0_1408).PackedRows (EltTy.packing .bf16)
  packedbf16_S512x2048_S512x128_0_1536 : (Rect.unit (s := S512x2048) ![0, 1536] S512x128.size inb_S512x2048_S512x128_0_1536).PackedRows (EltTy.packing .bf16)
  packedbf16_S512x2048_S512x128_0_1664 : (Rect.unit (s := S512x2048) ![0, 1664] S512x128.size inb_S512x2048_S512x128_0_1664).PackedRows (EltTy.packing .bf16)
  packedbf16_S512x2048_S512x128_0_1792 : (Rect.unit (s := S512x2048) ![0, 1792] S512x128.size inb_S512x2048_S512x128_0_1792).PackedRows (EltTy.packing .bf16)
  packedbf16_S512x2048_S512x128_0_1920 : (Rect.unit (s := S512x2048) ![0, 1920] S512x128.size inb_S512x2048_S512x128_0_1920).PackedRows (EltTy.packing .bf16)
  dot_S512x1024_S1024x512_S512x512_1_0_0_1_n_n_wf : DotDims.WF S512x1024 S1024x512 S512x512 [1] [0] [0] [1] [] []
  hcc0_scratch7 : 1 + S_.numel ≤ 70
  hcc0_scratch8 : 2 + S4.numel ≤ 70
  hcc0_scratch9 : 6 + S16.numel ≤ 70
  hcc0_scratch10 : 22 + S16.numel ≤ 70
  hcc0_scratch11 : 38 + S16.numel ≤ 70
  hcc0_scratch12 : 54 + S16.numel ≤ 70
  k0_off1_inb : ∀ d0 : Dev nD, ∀ (r : Fin 4), ∀ a, (k0_off1 d0 (BitVec.ofNat 32 (512 * r.val))) a + S1024x512.size a ≤ S1024x4096.size a
  k0_dev1_lt : ∀ d0 : Dev nD, (k0_dev1 d0) < nD
  k0_dev2_lt : ∀ d0 : Dev nD, (k0_dev2 d0) < nD
  k0_off2_inb : ∀ d0 : Dev nD, ∀ a, (k0_off2 d0) a + S1024x512.size a ≤ S1024x1024.size a
  k0_off3_inb : ∀ d0 : Dev nD, ∀ a, (k0_off3 d0) a + S1024x512.size a ≤ S1024x1024.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off4_inb : ∀ d0 : Dev nD, ∀ (r : Fin 16), ∀ a, (k0_off4 d0 (BitVec.ofNat 32 (128 * r.val))) a + S512x128.size a ≤ S512x4096.size a
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_off5_inb : ∀ d0 : Dev nD, ∀ (r : Fin 16), ∀ a, (k0_off5 d0 (BitVec.ofNat 32 (128 * r.val))) a + S512x128.size a ≤ S512x4096.size a
  hstage0_0 : ∀ j, (stage0_0 j).IsWhole

variable [Facts₀]

abbrev cc0_scratch7 : DmaSems sig S_ := SemArray.consecutive 1 S_ hcc0_scratch7
abbrev cc0_scratch8 : DmaSems sig S4 := SemArray.consecutive 2 S4 hcc0_scratch8
abbrev cc0_scratch9 : DmaSems sig S16 := SemArray.consecutive 6 S16 hcc0_scratch9
abbrev cc0_scratch10 : DmaSems sig S16 := SemArray.consecutive 22 S16 hcc0_scratch10
abbrev cc0_scratch11 : DmaSems sig S16 := SemArray.consecutive 38 S16 hcc0_scratch11
abbrev cc0_scratch12 : DmaSems sig S16 := SemArray.consecutive 54 S16 hcc0_scratch12
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.whole (Memref.whole main_v1) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S2048x4096 : Shape := ⟨2, ![2048, 4096]⟩
abbrev S1024x2048 : Shape := ⟨2, ![1024, 2048]⟩
abbrev S1024x4096 : Shape := ⟨2, ![1024, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S1024x2048, .f32⟩
  | .hbm, ⟨3, _⟩ => ⟨S1024x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S2048x1024_S1024x2048_1_0 : S2048x1024.Transposes [1, 0] S1024x2048
  dot_S1024x2048_S2048x4096_S1024x4096_1_0_0_1_n_n_wf : DotDims.WF S1024x2048 S2048x4096 S1024x4096 [1] [0] [0] [1] [] []

variable [Facts₀]

def dot_S1024x2048_S2048x4096_S1024x4096_1_0_0_1_n_n : DotDims S1024x2048 S2048x4096 S1024x4096 where
  lhsContracting := [1]
  rhsContracting := [0]
  lhsNonContracting := [0]
  rhsNonContracting := [1]
  lhsBatch := []
  rhsBatch := []
  wf := dot_S1024x2048_S2048x4096_S1024x4096_1_0_0_1_n_n_wf

class Facts : Prop extends Facts₀ where

variable [Facts]
-- ==== Proof.KernelIdealH.Mesh.lean ====
import proofs.«901045_g7700000000001046_dist_rsdw_v7x_xy2x2_x_m1024_d1024_f4096_f32_1_alg».proof.Proof.Gen.KernelIdeal

namespace Cert.KernelIdeal.Mesh

open Cert.KernelIdeal Cert.KernelIdeal.Gen
open Idealize.ShloMosaic

def cx (c : Dev nD) : Fin 2 := ⟨c.val / 2, by have h : c.val < 4 := c.isLt; omega⟩

def xn (c : Dev nD) : Dev nD := ⟨((c.val % 2) + 2) - 2 * (c.val / 2), by have h : c.val < 4 := c.isLt; show _ < 4; omega⟩

def yn (c : Dev nD) : Dev nD := ⟨(2 * (c.val / 2) + 1) - (c.val % 2), by have h : c.val < 4 := c.isLt; show _ < 4; omega⟩

theorem xn_xn (c : Dev nD) : xn (xn c) = c := by revert c; decide
theorem yn_yn (c : Dev nD) : yn (yn c) = c := by revert c; decide

theorem devx_eq (c : Dev nD) (n : Nat) (hlt : n < nD) (h : n = ((c.val % 2) + 2) - 2 * (c.val / 2)) :
    (⟨n, hlt⟩ : Dev nD) = xn c := Fin.ext h

theorem devy_eq (c : Dev nD) (n : Nat) (hlt : n < nD) (h : n = (2 * (c.val / 2) + 1) - (c.val % 2)) :
    (⟨n, hlt⟩ : Dev nD) = yn c := Fin.ext h

end Cert.KernelIdeal.Mesh
-- ==== Proof.KernelIdealH.Vals.lean ====
import proofs.«901045_g7700000000001046_dist_rsdw_v7x_xy2x2_x_m1024_d1024_f4096_f32_1_alg».proof.Proof.Gen.KernelIdeal.Skeleton
import proofs.«901045_g7700000000001046_dist_rsdw_v7x_xy2x2_x_m1024_d1024_f4096_f32_1_alg».proof.Proof.KernelIdealH.Mesh
import Idealize.ShloMosaic.Lib.ValueIdx

noncomputable section

namespace Cert.KernelIdeal.Vals

open Cert.KernelIdeal Cert.KernelIdeal.Gen Cert.KernelIdeal.Mesh
open Idealize.ShloMosaic Idealize.ShloMosaic.TcCoe Idealize.ShloMosaic.ValueIdx Idealize.SL.Sem

variable {F : FTy → Type} [FloatOps F]

def cols {R C W : Nat} {e : EltTy} (v : Vec F ⟨2, ![R, C]⟩ e) (off : Nat) (h : off + W ≤ C) : Vec F ⟨2, ![R, W]⟩ e :=
  fun y => v (ix2 (n0 := R) (n1 := C) (y 0) ⟨off + (y 1).val, by have h1 : (y 1).val < W := (y 1).isLt; omega⟩)

theorem glue_lt {n C W a : Nat} (hC : C = n * W) (ha : a < C) : a / W < n :=
  Nat.div_lt_of_lt_mul (by rw [Nat.mul_comm]; exact Nat.lt_of_lt_of_eq ha hC)

def glue {R W : Nat} {e : EltTy} (n C : Nat) (hC : C = n * W) (hW : 0 < W) (blk : Fin n → Vec F ⟨2, ![R, W]⟩ e) : Vec F ⟨2, ![R, C]⟩ e :=
  fun i => blk ⟨(i 1).val / W, glue_lt hC (i 1).isLt⟩
    (ix2 (n0 := R) (n1 := W) (i 0) ⟨(i 1).val % W, Nat.mod_lt _ hW⟩)

variable (m : (ℓ : Loc nD τ sig) → Buf (Elt F) ℓ)

def X (c : Dev nD) : Vec F S1024x1024 .f32 := m ((c : Thread nD τ).loc main_arg0)
def D (c : Dev nD) : Vec F S1024x4096 .f32 := m ((c : Thread nD τ).loc main_arg1)

def Xo (c : Dev nD) : Vec F S1024x512 .f32 := cols (X m c) (512 - 512 * (c.val / 2)) (by have h : c.val < 4 := c.isLt; omega)
def Xm (c : Dev nD) : Vec F S1024x512 .f32 := cols (X m c) (512 * (c.val / 2)) (by have h : c.val < 4 := c.isLt; omega)

def Dy (c : Dev nD) (b : Fin 4) : Vec F S1024x512 .f32 :=
  cols (D m c) (2048 * (c.val % 2) + 512 * b.val) (by have h := b.isLt; omega)

def DYV (c : Dev nD) : Vec F S1024x2048 .f32 := cols (D m c) (2048 * (c.val % 2)) (by omega)

def ps (c : Dev nD) (b : Fin 4) : Vec F S512x512 .bf16 := k0_pay5 (k0_pay1 (Xo m c)) (Dy m c b)
def pm (c : Dev nD) (b : Fin 4) : Vec F S512x512 .f32 := k0_pay8 (k0_pay2 (Xm m c)) (Dy m c b)

def PS (c : Dev nD) : Vec F S512x2048 .bf16 := glue 4 2048 (by decide) (by decide) (ps m c)
def PM (c : Dev nD) : Vec F S512x2048 .f32 := glue 4 2048 (by decide) (by decide) (pm m c)

def pmC (c : Dev nD) (j : Fin 16) : Vec F S512x128 .f32 := cols (PM m c) (128 * j.val) (by have h := j.isLt; omega)
def rxC (c : Dev nD) (j : Fin 16) : Vec F S512x128 .bf16 := cols (PS m (xn c)) (128 * j.val) (by have h := j.isLt; omega)

def sC (c : Dev nD) (j : Fin 16) : Vec F S512x128 .f32 := k0_pay12 (pmC m c j) (rxC m c j)
def ysC (c : Dev nD) (j : Fin 16) : Vec F S512x128 .bf16 := k0_pay13 (pmC m c j) (rxC m c j)

def YS (c : Dev nD) : Vec F S512x2048 .bf16 := glue 16 2048 (by decide) (by decide) (ysC m c)

def yrC (c : Dev nD) (j : Fin 16) : Vec F S512x128 .bf16 := cols (YS m (yn c)) (128 * j.val) (by have h := j.isLt; omega)
def oC (c : Dev nD) (j : Fin 16) : Vec F S512x128 .f32 := k0_pay46 (yrC m c j)

def own (c : Dev nD) : Vec F S512x2048 .f32 := glue 16 2048 (by decide) (by decide) (sC m c)
def oth (c : Dev nD) : Vec F S512x2048 .f32 := glue 16 2048 (by decide) (by decide) (oC m c)

def OUT (c : Dev nD) : Vec F S512x4096 .f32 := fun i =>
  if (i 1).val / 2048 = c.val % 2
  then own m c (ix2 (n0 := 512) (n1 := 2048) (i 0) ⟨(i 1).val % 2048, Nat.mod_lt _ (by decide)⟩)
  else oth m c (ix2 (n0 := 512) (n1 := 2048) (i 0) ⟨(i 1).val % 2048, Nat.mod_lt _ (by decide)⟩)

end Cert.KernelIdeal.Vals

end
-- ==== Proof.KernelIdealH.Sched.lean ====
import proofs.«901045_g7700000000001046_dist_rsdw_v7x_xy2x2_x_m1024_d1024_f4096_f32_1_alg».proof.Proof.KernelIdealH.Vals
import proofs.«901045_g7700000000001046_dist_rsdw_v7x_xy2x2_x_m1024_d1024_f4096_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Sched

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

abbrev barS : Sem sig := (SemArray.scalar (sig.barrier 0 rfl) : Sems sig S_).sem

def xvS : DmaSem sig := ⟨1, by show _ < 70; omega⟩
def dyS (b : Fin 4) : DmaSem sig := ⟨2 + b.val, by have := b.isLt; show _ < 70; omega⟩

def sxS (j : Fin 16) : DmaSem sig := ⟨6 + j.val, by have := j.isLt; show _ < 70; omega⟩
def rxS (j : Fin 16) : DmaSem sig := ⟨22 + j.val, by have := j.isLt; show _ < 70; omega⟩
def syS (j : Fin 16) : DmaSem sig := ⟨38 + j.val, by have := j.isLt; show _ < 70; omega⟩
def ryS (j : Fin 16) : DmaSem sig := ⟨54 + j.val, by have := j.isLt; show _ < 70; omega⟩

abbrev barCell (c : Dev nD) : GSem nD τ sig := ((c : Thread nD τ), .reg barS)
abbrev xvCell (c : Dev nD) : GSem nD τ sig := ((c : Thread nD τ), .dma xvS)
abbrev dyCell (c : Dev nD) (b : Fin 4) : GSem nD τ sig := ((c : Thread nD τ), .dma (dyS b))
abbrev sxCell (c : Dev nD) (j : Fin 16) : GSem nD τ sig := ((c : Thread nD τ), .dma (sxS j))
abbrev rxCell (c : Dev nD) (j : Fin 16) : GSem nD τ sig := ((c : Thread nD τ), .dma (rxS j))
abbrev syCell (c : Dev nD) (j : Fin 16) : GSem nD τ sig := ((c : Thread nD τ), .dma (syS j))
abbrev ryCell (c : Dev nD) (j : Fin 16) : GSem nD τ sig := ((c : Thread nD τ), .dma (ryS j))

abbrev psM : Memref sig .tc .vmem S512x2048 .bf16 := Memref.whole cc0_scratch2
abbrev rxM : Memref sig .tc .vmem S512x2048 .bf16 := Memref.whole cc0_scratch4
abbrev ysM : Memref sig .tc .vmem S512x2048 .bf16 := Memref.whole cc0_scratch5
abbrev yrM : Memref sig .tc .vmem S512x2048 .bf16 := Memref.whole cc0_scratch6

abbrev argXM : Memref sig .tc .hbm S1024x1024 .f32 := Memref.whole main_arg0
abbrev argDM : Memref sig .tc .hbm S1024x4096 .f32 := Memref.whole main_arg1
abbrev xvM : Memref sig .tc .vmem S1024x1024 .f32 := Memref.whole cc0_scratch0
abbrev dyvM : Memref sig .tc .vmem S1024x2048 .f32 := Memref.whole cc0_scratch1

theorem dyblk_inb (b : Fin 4) : ∀ a, (![0, 512 * b.val] : Fin 2 → Nat) a + S1024x512.size a ≤ S1024x2048.size a := by
  revert b; decide

abbrev dyvC (b : Fin 4) : Memref sig .tc .vmem S1024x512 .f32 :=
  dyvM.slice (Rect.unit (s := S1024x2048) ![0, 512 * b.val] S1024x512.size (dyblk_inb b)) (fun _ => rfl)
abbrev dySrc (c : Dev nD) (b : Fin 4) : Memref sig .tc .hbm S1024x512 .f32 :=
  argDM.slice (Rect.unit (s := S1024x4096) (k0_off1 c (BitVec.ofNat 32 (512 * b.val))) S1024x512.size (k0_off1_inb c b)) (fun _ => rfl)

theorem chunk_inb (j : Fin 16) : ∀ a, (![0, 128 * j.val] : Fin 2 → Nat) a + S512x128.size a ≤ S512x2048.size a := by
  revert j; decide

abbrev chunkR (j : Fin 16) : Rect S512x2048 := Rect.unit (s := S512x2048) ![0, 128 * j.val] S512x128.size (chunk_inb j)

abbrev psC (j : Fin 16) : Memref sig .tc .vmem S512x128 .bf16 := psM.slice (chunkR j) (fun _ => rfl)
abbrev rxC (j : Fin 16) : Memref sig .tc .vmem S512x128 .bf16 := rxM.slice (chunkR j) (fun _ => rfl)
abbrev ysC (j : Fin 16) : Memref sig .tc .vmem S512x128 .bf16 := ysM.slice (chunkR j) (fun _ => rfl)
abbrev yrC (j : Fin 16) : Memref sig .tc .vmem S512x128 .bf16 := yrM.slice (chunkR j) (fun _ => rfl)

abbrev N : ℕ := (psC 0).view.dmaCredit

def psPts (c : Dev nD) (j : Fin 16) (f : Buf (Elt F) ((psC j).view.loc (c : Thread nD τ))) : sProp 𝕄 :=
  (psC j).view.loc (c : Thread nD τ) ↦[(psC j).view.set]{fullShare} f
def rxPts (c : Dev nD) (j : Fin 16) (f : Buf (Elt F) ((rxC j).view.loc (c : Thread nD τ))) : sProp 𝕄 :=
  (rxC j).view.loc (c : Thread nD τ) ↦[(rxC j).view.set]{fullShare} f
def ysPts (c : Dev nD) (j : Fin 16) (f : Buf (Elt F) ((ysC j).view.loc (c : Thread nD τ))) : sProp 𝕄 :=
  (ysC j).view.loc (c : Thread nD τ) ↦[(ysC j).view.set]{fullShare} f
def yrPts (c : Dev nD) (j : Fin 16) (f : Buf (Elt F) ((yrC j).view.loc (c : Thread nD τ))) : sProp 𝕄 :=
  (yrC j).view.loc (c : Thread nD τ) ↦[(yrC j).view.set]{fullShare} f

def barPayX (c : Dev nD) : sProp 𝕄 := iprop(∃ f : Buf (Elt F) (((xn c : Dev nD) : Thread nD τ).loc cc0_scratch4), (((xn c : Dev nD) : Thread nD τ).loc cc0_scratch4) ↦{fullShare} f)
def barPayY (c : Dev nD) : sProp 𝕄 := iprop(∃ f : Buf (Elt F) (((yn c : Dev nD) : Thread nD τ).loc cc0_scratch6), (((yn c : Dev nD) : Thread nD τ).loc cc0_scratch6) ↦{fullShare} f)

def sxPay (c : Dev nD) (j : Fin 16) : sProp 𝕄 := psPts c j (Vals.PS m c)
def rxPay (c : Dev nD) (j : Fin 16) : sProp 𝕄 := rxPts c j (Vals.PS m (xn c))
def syPay (c : Dev nD) (j : Fin 16) : sProp 𝕄 := ysPts c j (Vals.YS m c)
def ryPay (c : Dev nD) (j : Fin 16) : sProp 𝕄 := yrPts c j (Vals.YS m (yn c))

def xvPay (c : Dev nD) : sProp 𝕄 :=
  iprop((xvM.view.loc (c : Thread nD τ) ↦[xvM.view.set]{fullShare} Vals.X m c)
    ∗ (argXM.view.loc (c : Thread nD τ) ↦[argXM.view.set]{fullShare} Vals.X m c))
def dyPay (c : Dev nD) (b : Fin 4) : sProp 𝕄 :=
  iprop(((dyvC b).view.loc (c : Thread nD τ) ↦[(dyvC b).view.set]{fullShare} Vals.DYV m c)
    ∗ ((dySrc c b).view.loc (c : Thread nD τ) ↦[(dySrc c b).view.set]{fullShare} Vals.D m c))

def famOf (i : DmaSem sig) : Option (Fin 4 × Fin 16) :=
  if h : 6 ≤ i.val ∧ i.val < 70 then some (⟨(i.val - 6) / 16, by omega⟩, ⟨(i.val - 6) % 16, Nat.mod_lt _ (by decide)⟩) else none

abbrev IsBar (g : GSem nD τ sig) : Prop := g.1.2 = .tc ∧ g.2 = .reg barS
def IsXfer (g : GSem nD τ sig) : Prop := g.1.2 = .tc ∧ ∃ i : DmaSem sig, g.2 = .dma i ∧ 1 ≤ i.val

instance (g : GSem nD τ sig) : Decidable (IsXfer g) := by unfold IsXfer; infer_instance

def xferPay (c : Dev nD) (i : DmaSem sig) : sProp 𝕄 :=
  if i.val = 1 then xvPay m c
  else if h : 2 ≤ i.val ∧ i.val < 6 then dyPay m c ⟨i.val - 2, by omega⟩
  else match famOf i with
  | some (⟨0, _⟩, j) => sxPay m c j
  | some (⟨1, _⟩, j) => rxPay m c j
  | some (⟨2, _⟩, j) => syPay m c j
  | some (⟨_ + 3, _⟩, j) => ryPay m c j
  | none => iprop(emp)

def sched : Rounds.Schedule (GSem nD τ sig) Bool 𝕄 where
  duties g r := if r = 0 ∧ IsBar g then Finset.univ else if r = 0 ∧ IsXfer g then {false} else ∅
  unitless _ := False
  amount g _ _ :=
    match g.2 with
    | .reg _ => 1
    | .dma i => if i.val = 1 then xvM.view.dmaCredit else if i.val < 6 then (dyvC 0).view.dmaCredit else N
  payload g _ d :=
    match g.2 with
    | .reg _ => if d then barPayY g.1.1 else barPayX g.1.1
    | .dma i => xferPay m g.1.1 i
  amount_pos g _ _ _ := by
    rcases g with ⟨t, _ | i⟩
    · exact Nat.one_pos
    · dsimp only
      split
      · exact View.dmaCredit_pos _ (by decide)
      · split <;> exact View.dmaCredit_pos _ (by decide)

end Cert.KernelIdeal.Sched

end
-- ==== Proof.KernelIdealH.Inv.lean ====
import proofs.«901045_g7700000000001046_dist_rsdw_v7x_xy2x2_x_m1024_d1024_f4096_f32_1_alg».proof.Proof.KernelIdealH.Sched
import proofs.«901045_g7700000000001046_dist_rsdw_v7x_xy2x2_x_m1024_d1024_f4096_f32_1_alg».proof.Proof.Gen.KernelIdeal.Points
import proofs.«901045_g7700000000001046_dist_rsdw_v7x_xy2x2_x_m1024_d1024_f4096_f32_1_alg».proof.Proof.Gen.KernelIdeal.Frame

noncomputable section

namespace Cert.KernelIdeal.Sched

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

abbrev 𝒱₀ : Variants := Variants.none

def kcell (ck : Dev nD × Fin 70) : GSem nD τ sig :=
  if ck.2.val = 0 then barCell ck.1 else ((ck.1 : Thread nD τ), .dma (ck.2 : DmaSem sig))

def records (K : Dev nD × Fin 70 → ℕ) : sProp 𝕄 :=
  iprop((bigSep Finset.univ fun ck : Dev nD × Fin 70 => cellInv ER (sched m) (K ck) (kcell ck))
    ∗ bigSep Finset.univ fun ck : Dev nD × Fin 70 => reached ER (kcell ck) 0)

instance records_persistent (K : Dev nD × Fin 70 → ℕ) : BI.Persistent (records m K) := by unfold records; infer_instance

def payToks (c : Dev nD) : sProp 𝕄 :=
  iprop(dutyTok ER (barCell (xn c)) 0 false ∗ dutyTok ER (barCell (yn c)) 0 true
    ∗ dutyTok ER (xvCell c) 0 false ∗ (bigSep Finset.univ fun b : Fin 4 => dutyTok ER (dyCell c b) 0 false)
    ∗ (bigSep Finset.univ fun j : Fin 16 => dutyTok ER (sxCell c j) 0 false)
    ∗ (bigSep Finset.univ fun j : Fin 16 => dutyTok ER (rxCell (xn c) j) 0 false)
    ∗ (bigSep Finset.univ fun j : Fin 16 => dutyTok ER (syCell c j) 0 false)
    ∗ (bigSep Finset.univ fun j : Fin 16 => dutyTok ER (ryCell (yn c) j) 0 false))

def linear (c : Dev nD) : sProp 𝕄 :=
  iprop((bigSep Finset.univ fun k : Fin 70 => atPos ER (kcell (c, k)) 0 ∅ 0) ∗ payToks c)

def ghost (K : Dev nD × Fin 70 → ℕ) (c : Dev nD) : sProp 𝕄 := iprop(records m K ∗ linear c)

def oweX (c : Dev nD) (n : ℕ) : CellTallies nD τ sig Unit :=
  ∑ j ∈ (Finset.univ : Finset (Fin 16)).filter (fun j => n ≤ j.val), tallyAt (rxCell (xn c) j) () N
def oweY (c : Dev nD) (n : ℕ) : CellTallies nD τ sig Unit :=
  ∑ j ∈ (Finset.univ : Finset (Fin 16)).filter (fun j => n ≤ j.val), tallyAt (ryCell (yn c) j) () N

def O₂ (c : Dev nD) : CellTallies nD τ sig Unit := oweY c 0 + oweX c 0
def O₁ (c : Dev nD) : CellTallies nD τ sig Unit := O₂ c + tallyAt (barCell (yn c)) () 1
def O₀ (c : Dev nD) : CellTallies nD τ sig Unit := O₁ c + tallyAt (barCell (xn c)) () 1

def L (g : GSem nD τ sig) : Finset Unit := if g.1.2 = .tc then {()} else ∅

def lv (g : GSem nD τ sig) (_ : Unit) : ℕ :=
  match g.2 with
  | .reg _ => 1
  | .dma i => if 22 ≤ i.val ∧ i.val < 38 then 2 else if 54 ≤ i.val then 3 else 0

theorem L_of_ne (g : GSem nD τ sig) (h : g.1.2 ≠ .tc) : L g = ∅ := if_neg h
theorem L_tc (c : Dev nD) (sm : SemLoc sig) : L ((c : Thread nD τ), sm) = {()} := if_pos rfl

def scr (c : Dev nD) (b : Ref sig .tc) : sProp 𝕄 :=
  iprop(∃ f : Buf (Elt F) ((c : Thread nD τ).loc b), ((c : Thread nD τ).loc b) ↦{fullShare} f)

def scratches (c : Dev nD) : sProp 𝕄 :=
  iprop(scr c cc0_scratch0 ∗ scr c cc0_scratch1 ∗ scr c cc0_scratch2 ∗ scr c cc0_scratch3 ∗ scr c cc0_scratch4 ∗ scr c cc0_scratch5 ∗ scr c cc0_scratch6)

def argPts (c : Dev nD) : sProp 𝕄 :=
  iprop((((c : Thread nD τ).loc main_arg0) ↦{fullShare} Vals.X m c) ∗ (((c : Thread nD τ).loc main_arg1) ↦{fullShare} Vals.D m c))

def creds (c : Dev nD) : sProp 𝕄 :=
  iprop(cred (tallyAt (barCell c) () 2)
    ∗ (bigSep Finset.univ fun j : Fin 16 => cred (tallyAt (rxCell c j) () N))
    ∗ (bigSep Finset.univ fun j : Fin 16 => cred (tallyAt (ryCell c j) () N)))

def start (c : Dev nD) : sProp 𝕄 := iprop((∃ K, ghost m K c) ∗ creds c ∗ levAts L lv ∗ argPts m c)

def Φ₀ (c : Dev nD) : sProp 𝕄 := iprop(start m c ∗ scratches c)

def Φ₁ (c : Dev nD) : sProp 𝕄 :=
  iprop(argPts m c ∗ scratches c ∗ bigSep ((Finset.univ : Finset (Fin 70)).filter fun k => k.val ≠ 0) fun k => semVal (kcell (c, k)) 0)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Vals.OUT m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 70 → ℕ) (c : Dev nD) : sProp 𝕄 :=
  iprop((ghost m K c ∗ creds c ∗ levAts L lv ∗ argPts m c ∗ scratches c)
    ∗ (dats m ρ 0 c).owesAt () t₀.castSucc
    ∗ (∃ d, stg c cc0_stg0_0 ((dats m ρ 0 c).before (0 : Fin 1) t₀ d)))

def bodyPost (c : Dev nD) : sProp 𝕄 :=
  iprop(Φ₁ m c ∗ (dats m ρ 0 c).owesAt () t₀.succ ∗ stg c cc0_stg0_0 (Vals.OUT m c))

end Cert.KernelIdeal.Sched

end
-- ==== Proof.KernelIdealH.SchedT.lean ====
import proofs.«901045_g7700000000001046_dist_rsdw_v7x_xy2x2_x_m1024_d1024_f4096_f32_1_alg».proof.Proof.KernelIdealH.Sched

noncomputable section

namespace Cert.KernelIdeal.Sched

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem dyS_val (b : Fin 4) : (dyS b).val = 2 + b.val := rfl
theorem sxS_val (j : Fin 16) : (sxS j).val = 6 + j.val := rfl
theorem rxS_val (j : Fin 16) : (rxS j).val = 22 + j.val := rfl
theorem syS_val (j : Fin 16) : (syS j).val = 38 + j.val := rfl
theorem ryS_val (j : Fin 16) : (ryS j).val = 54 + j.val := rfl

theorem dma_ne_bar (i : DmaSem sig) : (SemLoc.dma i : SemLoc sig) ≠ .reg barS := fun h => by cases h

def xsem (k : Fin 4 × Fin 16) : DmaSem sig :=
  ⟨6 + 16 * k.1.val + k.2.val, by have h1 := k.1.isLt; have h2 := k.2.isLt; show _ < 70; omega⟩

theorem xsem_val (k : Fin 4 × Fin 16) : (xsem k).val = 6 + 16 * k.1.val + k.2.val := rfl

theorem xsem_sx (j : Fin 16) : xsem (0, j) = sxS j := Fin.ext (by show 6 + 16 * 0 + j.val = 6 + j.val; omega)
theorem xsem_rx (j : Fin 16) : xsem (1, j) = rxS j := Fin.ext (by show 6 + 16 * 1 + j.val = 22 + j.val; omega)
theorem xsem_sy (j : Fin 16) : xsem (2, j) = syS j := Fin.ext (by show 6 + 16 * 2 + j.val = 38 + j.val; omega)
theorem xsem_ry (j : Fin 16) : xsem (3, j) = ryS j := Fin.ext (by show 6 + 16 * 3 + j.val = 54 + j.val; omega)

theorem famOf_xsem (k : Fin 4 × Fin 16) : famOf (xsem k) = some k := by
  obtain ⟨a, b⟩ := k
  have ha : a.val < 4 := a.isLt
  have hb : b.val < 16 := b.isLt
  unfold famOf
  rw [dif_pos (by rw [xsem_val]; show 6 ≤ 6 + 16 * a.val + b.val ∧ 6 + 16 * a.val + b.val < 70; omega)]
  refine congrArg some (Prod.ext (Fin.ext ?_) (Fin.ext ?_))
  · show (6 + 16 * a.val + b.val - 6) / 16 = a.val; omega
  · show (6 + 16 * a.val + b.val - 6) % 16 = b.val; omega

theorem famOf_sx (j : Fin 16) : famOf (sxS j) = some (0, j) := by rw [← xsem_sx]; exact famOf_xsem _
theorem famOf_rx (j : Fin 16) : famOf (rxS j) = some (1, j) := by rw [← xsem_rx]; exact famOf_xsem _
theorem famOf_sy (j : Fin 16) : famOf (syS j) = some (2, j) := by rw [← xsem_sy]; exact famOf_xsem _
theorem famOf_ry (j : Fin 16) : famOf (ryS j) = some (3, j) := by rw [← xsem_ry]; exact famOf_xsem _

instance sched_payload_storable (g : GSem nD τ sig) (r : ℕ) (d : Bool) :
    BI.Storable (upEmb : UEmb _ 𝕄) ((sched (F := F) m).payload g r d) := by
  rcases g with ⟨t, s | i⟩
  · show BI.Storable upEmb (if d then barPayY t.1 else barPayX t.1)
    unfold barPayX barPayY
    split <;> infer_instance
  · show BI.Storable upEmb (xferPay m t.1 i)
    unfold xferPay xvPay dyPay sxPay rxPay syPay ryPay psPts rxPts ysPts yrPts
    (repeat' split) <;> infer_instance

section Tables
variable (c : Dev nD) (j : Fin 16) (b : Fin 4)

theorem not_bar_dma (i : DmaSem sig) : ¬ IsBar (((c : Thread nD τ), .dma i) : GSem nD τ sig) := fun h => dma_ne_bar i h.2

theorem isXfer_dma (i : DmaSem sig) (h : 1 ≤ i.val) : IsXfer (((c : Thread nD τ), .dma i) : GSem nD τ sig) := by
  unfold IsXfer; exact ⟨rfl, i, rfl, h⟩

theorem duties_dma (i : DmaSem sig) (h : 1 ≤ i.val) :
    (sched (F := F) m).duties (((c : Thread nD τ), .dma i) : GSem nD τ sig) 0 = {false} := by
  dsimp only [sched]; rw [if_neg (fun h' => not_bar_dma c i h'.2)]; exact if_pos ⟨rfl, isXfer_dma c i h⟩

theorem duties_bar : (sched (F := F) m).duties (barCell c) 0 = Finset.univ := by dsimp only [sched]; exact if_pos ⟨rfl, rfl, rfl⟩
theorem duties_xv : (sched (F := F) m).duties (xvCell c) 0 = {false} := duties_dma m c xvS (Nat.le_refl 1)
theorem duties_dy : (sched (F := F) m).duties (dyCell c b) 0 = {false} := duties_dma m c (dyS b) (by rw [dyS_val]; omega)
theorem duties_sx : (sched (F := F) m).duties (sxCell c j) 0 = {false} := duties_dma m c (sxS j) (by rw [sxS_val]; omega)
theorem duties_rx : (sched (F := F) m).duties (rxCell c j) 0 = {false} := duties_dma m c (rxS j) (by rw [rxS_val]; omega)
theorem duties_sy : (sched (F := F) m).duties (syCell c j) 0 = {false} := duties_dma m c (syS j) (by rw [syS_val]; omega)
theorem duties_ry : (sched (F := F) m).duties (ryCell c j) 0 = {false} := duties_dma m c (ryS j) (by rw [ryS_val]; omega)

theorem duties_later (g : GSem nD τ sig) : ∀ r, 1 ≤ r → (sched (F := F) m).duties g r = ∅ :=
  fun r hr => by
    dsimp only [sched]
    rw [if_neg (fun h => by have := h.1; omega), if_neg (fun h => by have := h.1; omega)]

theorem amount_bar (d : Bool) : (sched (F := F) m).amount (barCell c) 0 d = 1 := rfl
theorem amount_xv (d : Bool) : (sched (F := F) m).amount (xvCell c) 0 d = xvM.view.dmaCredit := by
  dsimp only [sched]; exact if_pos rfl
theorem amount_dy (d : Bool) : (sched (F := F) m).amount (dyCell c b) 0 d = (dyvC 0).view.dmaCredit := by
  have hb : b.val < 4 := b.isLt
  dsimp only [sched]; rw [if_neg (by rw [dyS_val]; omega), if_pos (by rw [dyS_val]; omega)]
theorem amount_sx (d : Bool) : (sched (F := F) m).amount (sxCell c j) 0 d = N := by
  dsimp only [sched]; rw [if_neg (by rw [sxS_val]; omega), if_neg (by rw [sxS_val]; omega)]
theorem amount_rx (d : Bool) : (sched (F := F) m).amount (rxCell c j) 0 d = N := by
  dsimp only [sched]; rw [if_neg (by rw [rxS_val]; omega), if_neg (by rw [rxS_val]; omega)]
theorem amount_sy (d : Bool) : (sched (F := F) m).amount (syCell c j) 0 d = N := by
  dsimp only [sched]; rw [if_neg (by rw [syS_val]; omega), if_neg (by rw [syS_val]; omega)]
theorem amount_ry (d : Bool) : (sched (F := F) m).amount (ryCell c j) 0 d = N := by
  dsimp only [sched]; rw [if_neg (by rw [ryS_val]; omega), if_neg (by rw [ryS_val]; omega)]

theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]

theorem expect_of_single (g : GSem nD τ sig) (h : (sched (F := F) m).duties g 0 = {false}) :
    (sched (F := F) m).expect g 0 = (sched (F := F) m).amount g 0 false := by
  unfold Schedule.expect Schedule.amountOf; rw [h, Finset.sum_singleton]

theorem expect_xv : (sched (F := F) m).expect (xvCell c) 0 = xvM.view.dmaCredit :=
  (expect_of_single m _ (duties_xv m c)).trans (amount_xv m c false)
theorem expect_dy : (sched (F := F) m).expect (dyCell c b) 0 = (dyvC 0).view.dmaCredit :=
  (expect_of_single m _ (duties_dy m c b)).trans (amount_dy m c b false)
theorem expect_sx : (sched (F := F) m).expect (sxCell c j) 0 = N :=
  (expect_of_single m _ (duties_sx m c j)).trans (amount_sx m c j false)
theorem expect_rx : (sched (F := F) m).expect (rxCell c j) 0 = N :=
  (expect_of_single m _ (duties_rx m c j)).trans (amount_rx m c j false)
theorem expect_sy : (sched (F := F) m).expect (syCell c j) 0 = N :=
  (expect_of_single m _ (duties_sy m c j)).trans (amount_sy m c j false)
theorem expect_ry : (sched (F := F) m).expect (ryCell c j) 0 = N :=
  (expect_of_single m _ (duties_ry m c j)).trans (amount_ry m c j false)

theorem payload_bar_false : (sched (F := F) m).payload (barCell c) 0 false = barPayX c := by
  dsimp only [sched]; exact if_neg Bool.false_ne_true
theorem payload_bar_true : (sched (F := F) m).payload (barCell c) 0 true = barPayY c := by
  dsimp only [sched]; exact if_pos rfl
theorem payload_xv (d : Bool) : (sched (F := F) m).payload (xvCell c) 0 d = xvPay m c := by
  show xferPay m c xvS = xvPay m c
  unfold xferPay; exact if_pos rfl
theorem payload_dy (d : Bool) : (sched (F := F) m).payload (dyCell c b) 0 d = dyPay m c b := by
  have hb : b.val < 4 := b.isLt
  show xferPay m c (dyS b) = dyPay m c b
  unfold xferPay
  rw [if_neg (by rw [dyS_val]; omega), dif_pos (by rw [dyS_val]; omega)]
  exact congrArg (dyPay m c) (Fin.ext (by show 2 + b.val - 2 = b.val; omega))
theorem payload_sx (d : Bool) : (sched (F := F) m).payload (sxCell c j) 0 d = sxPay m c j := by
  show xferPay m c (sxS j) = sxPay m c j
  unfold xferPay
  rw [if_neg (by rw [sxS_val]; omega), dif_neg (by rw [sxS_val]; omega), famOf_sx]
theorem payload_rx (d : Bool) : (sched (F := F) m).payload (rxCell c j) 0 d = rxPay m c j := by
  show xferPay m c (rxS j) = rxPay m c j
  unfold xferPay
  rw [if_neg (by rw [rxS_val]; omega), dif_neg (by rw [rxS_val]; omega), famOf_rx]
theorem payload_sy (d : Bool) : (sched (F := F) m).payload (syCell c j) 0 d = syPay m c j := by
  show xferPay m c (syS j) = syPay m c j
  unfold xferPay
  rw [if_neg (by rw [syS_val]; omega), dif_neg (by rw [syS_val]; omega), famOf_sy]
theorem payload_ry (d : Bool) : (sched (F := F) m).payload (ryCell c j) 0 d = ryPay m c j := by
  show xferPay m c (ryS j) = ryPay m c j
  unfold xferPay
  rw [if_neg (by rw [ryS_val]; omega), dif_neg (by rw [ryS_val]; omega), famOf_ry]

theorem rest_bar : bigSep ((sched (F := F) m).duties (barCell c) 0 \ ∅) (fun d => (sched (F := F) m).payload (barCell c) 0 d) = iprop(barPayX c ∗ barPayY c) := by
  rw [Finset.sdiff_empty, duties_bar, bigSep_univ_eq_bigSepL [false, true] (by decide) (by decide), bigSepL_cons_cons, bigSepL_singleton,
    payload_bar_false, payload_bar_true]
  rfl
theorem rest_xv : bigSep ((sched (F := F) m).duties (xvCell c) 0 \ ∅) (fun d => (sched (F := F) m).payload (xvCell c) 0 d) = xvPay m c := by
  rw [Finset.sdiff_empty, duties_xv, bigSep_singleton, payload_xv]
theorem rest_dy : bigSep ((sched (F := F) m).duties (dyCell c b) 0 \ ∅) (fun d => (sched (F := F) m).payload (dyCell c b) 0 d) = dyPay m c b := by
  rw [Finset.sdiff_empty, duties_dy, bigSep_singleton, payload_dy]
theorem rest_sx : bigSep ((sched (F := F) m).duties (sxCell c j) 0 \ ∅) (fun d => (sched (F := F) m).payload (sxCell c j) 0 d) = sxPay m c j := by
  rw [Finset.sdiff_empty, duties_sx, bigSep_singleton, payload_sx]
theorem rest_rx : bigSep ((sched (F := F) m).duties (rxCell c j) 0 \ ∅) (fun d => (sched (F := F) m).payload (rxCell c j) 0 d) = rxPay m c j := by
  rw [Finset.sdiff_empty, duties_rx, bigSep_singleton, payload_rx]
theorem rest_sy : bigSep ((sched (F := F) m).duties (syCell c j) 0 \ ∅) (fun d => (sched (F := F) m).payload (syCell c j) 0 d) = syPay m c j := by
  rw [Finset.sdiff_empty, duties_sy, bigSep_singleton, payload_sy]
theorem rest_ry : bigSep ((sched (F := F) m).duties (ryCell c j) 0 \ ∅) (fun d => (sched (F := F) m).payload (ryCell c j) 0 d) = ryPay m c j := by
  rw [Finset.sdiff_empty, duties_ry, bigSep_singleton, payload_ry]

end Tables

end Cert.KernelIdeal.Sched

end
-- ==== Proof.KernelIdealH.ReadsLand.lean ====
import proofs.«901045_g7700000000001046_dist_rsdw_v7x_xy2x2_x_m1024_d1024_f4096_f32_1_alg».proof.Proof.KernelIdealH.Sched
import Idealize.ShloMosaic.Lib.Pipeline.Value

noncomputable section

namespace Cert.KernelIdeal.Sched

open Cert.KernelIdeal Cert.KernelIdeal.Gen Cert.KernelIdeal.Mesh
open Idealize.ShloMosaic Idealize.ShloMosaic.TcCoe Idealize.ShloMosaic.ValueIdx Idealize.SL.Sem

variable {F : FTy → Type} [FloatOps F]
variable (m : (ℓ : Loc nD τ sig) → Buf (Elt F) ℓ)

theorem xv_land (c : Dev nD) (fd : Buf (Elt F) (xvM.view.loc (c : Thread nD τ))) :
    xvM.view.write (Elt F) fd (argXM.view.read (Elt F) (Vals.X m c)) Finset.univ = Vals.X m c :=
  View.write_whole_univ (Val := Elt F) cc0_scratch0 fd _

theorem dy_land (c : Dev nD) (b : Fin 4) (fd : Buf (Elt F) ((dyvC b).view.loc (c : Thread nD τ))) :
    ∀ i ∈ (dyvC b).view.set,
      (dyvC b).view.write (Elt F) fd ((dySrc c b).view.read (Elt F) (Vals.D m c)) Finset.univ i = Vals.DYV m c i := by
  intro i hi
  obtain ⟨x, rfl⟩ := View.exists_emb_of_mem_set _ hi
  rw [View.write_emb_of_mem _ _ (Finset.mem_univ x)]
  show Vals.D m c ((Rect.unit (s := S1024x4096) (k0_off1 c (BitVec.ofNat 32 (512 * b.val))) S1024x512.size (k0_off1_inb c b)).emb x)
    = Vals.D m c (ix2 _ _)
  refine congrArg (Vals.D m c) (funext fun a => Fin.ext ?_)
  have h := k0_off1_eq c b
  match a with
  | ⟨0, _⟩ =>
    show (k0_off1 c (BitVec.ofNat 32 (512 * b.val))) 0 + 1 * (x 0).val = 0 + 1 * (x 0).val
    rw [h]; rfl
  | ⟨1, _⟩ =>
    show (k0_off1 c (BitVec.ofNat 32 (512 * b.val))) 1 + 1 * (x 1).val = 2048 * (c.val % 2) + (512 * b.val + 1 * (x 1).val)
    rw [h]
    show 2048 * (c.val % 2) + 512 * b.val + 1 * (x 1).val = _
    omega

theorem rx_land (c : Dev nD) (j : Fin 16) (fd : Buf (Elt F) ((rxC j).view.loc ((xn c : Dev nD) : Thread nD τ))) :
    ∀ i ∈ (rxC j).view.set,
      (rxC j).view.write (Elt F) fd ((psC j).view.read (Elt F) (Vals.PS m c)) Finset.univ i = Vals.PS m c i := by
  intro i hi
  obtain ⟨x, rfl⟩ := View.exists_emb_of_mem_set _ hi
  rw [View.write_emb_of_mem _ _ (Finset.mem_univ x)]
  rfl

theorem yr_land (c : Dev nD) (j : Fin 16) (fd : Buf (Elt F) ((yrC j).view.loc ((yn c : Dev nD) : Thread nD τ))) :
    ∀ i ∈ (yrC j).view.set,
      (yrC j).view.write (Elt F) fd ((ysC j).view.read (Elt F) (Vals.YS m c)) Finset.univ i = Vals.YS m c i := by
  intro i hi
  obtain ⟨x, rfl⟩ := View.exists_emb_of_mem_set _ hi
  rw [View.write_emb_of_mem _ _ (Finset.mem_univ x)]
  rfl

end Cert.KernelIdeal.Sched

end
-- ==== Proof.KernelIdealH.Rules.lean ====
import proofs.«901045_g7700000000001046_dist_rsdw_v7x_xy2x2_x_m1024_d1024_f4096_f32_1_alg».proof.Proof.KernelIdealH.Inv
import proofs.«901045_g7700000000001046_dist_rsdw_v7x_xy2x2_x_m1024_d1024_f4096_f32_1_alg».proof.Proof.KernelIdealH.SchedT
import proofs.«901045_g7700000000001046_dist_rsdw_v7x_xy2x2_x_m1024_d1024_f4096_f32_1_alg».proof.Proof.KernelIdealH.ReadsLand

noncomputable section

namespace Cert.KernelIdeal.Sched

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

private theorem kcell_bar (c : Dev nD) : kcell (c, 0) = barCell c := if_pos rfl

private theorem kcell_dma (c : Dev nD) (i : Fin 70) (hi : i.val ≠ 0) :
    kcell (c, i) = ((c : Thread nD τ), SemLoc.dma (i : DmaSem sig)) := if_neg hi

theorem inv_bar (K : Dev nD × Fin 70 → ℕ) (c : Dev nD) :
    records m K ⊢ cellInv ER (sched m) (K (c, 0)) (barCell c) := by
  have h : bigSep Finset.univ (fun ck : Dev nD × Fin 70 => cellInv ER (sched (F := F) m) (K ck) (kcell ck))
      ⊢ cellInv ER (sched (F := F) m) (K (c, 0)) (kcell (c, 0)) := bigSep_elim (Finset.mem_univ _)
  rw [kcell_bar] at h
  unfold records
  iintro ⟨H, -⟩
  iapply h
  iexact H

theorem inv_dma (K : Dev nD × Fin 70 → ℕ) (c : Dev nD) (i : Fin 70) (hi : i.val ≠ 0) :
    records m K ⊢ cellInv ER (sched m) (K (c, i)) ((c : Thread nD τ), SemLoc.dma (i : DmaSem sig)) := by
  have h : bigSep Finset.univ (fun ck : Dev nD × Fin 70 => cellInv ER (sched (F := F) m) (K ck) (kcell ck))
      ⊢ cellInv ER (sched (F := F) m) (K (c, i)) (kcell (c, i)) := bigSep_elim (Finset.mem_univ _)
  rw [kcell_dma c i hi] at h
  unfold records
  iintro ⟨H, -⟩
  iapply h
  iexact H

theorem reached_bar (K : Dev nD × Fin 70 → ℕ) (c : Dev nD) : records m K ⊢ reached ER (barCell c) 0 := by
  have h : bigSep Finset.univ (fun ck : Dev nD × Fin 70 => (reached ER (kcell ck) 0 : sProp 𝕄))
      ⊢ reached ER (kcell (c, 0)) 0 := bigSep_elim (Finset.mem_univ _)
  rw [kcell_bar] at h
  unfold records
  iintro ⟨-, H⟩
  iapply h
  iexact H

theorem reached_dma (K : Dev nD × Fin 70 → ℕ) (c : Dev nD) (i : Fin 70) (hi : i.val ≠ 0) :
    records m K ⊢ reached ER ((c : Thread nD τ), SemLoc.dma (i : DmaSem sig)) 0 := by
  have h : bigSep Finset.univ (fun ck : Dev nD × Fin 70 => (reached ER (kcell ck) 0 : sProp 𝕄))
      ⊢ reached ER (kcell (c, i)) 0 := bigSep_elim (Finset.mem_univ _)
  rw [kcell_dma c i hi] at h
  unfold records
  iintro ⟨-, H⟩
  iapply h
  iexact H

private theorem xvS_ne : (xvS : Fin 70).val ≠ 0 := by decide
private theorem dyS_ne (b : Fin 4) : (dyS b : Fin 70).val ≠ 0 := by rw [dyS_val]; omega
private theorem sxS_ne (j : Fin 16) : (sxS j : Fin 70).val ≠ 0 := by rw [sxS_val]; omega
private theorem rxS_ne (j : Fin 16) : (rxS j : Fin 70).val ≠ 0 := by rw [rxS_val]; omega
private theorem syS_ne (j : Fin 16) : (syS j : Fin 70).val ≠ 0 := by rw [syS_val]; omega
private theorem ryS_ne (j : Fin 16) : (ryS j : Fin 70).val ≠ 0 := by rw [ryS_val]; omega

theorem dyvC_amount (b : Fin 4) : (dyvC b).view.amount (SemLoc.dma (dyS b)) = (dyvC 0).view.dmaCredit := rfl
theorem rxC_amount (j : Fin 16) : (rxC j).view.amount (SemLoc.dma (rxS j)) = N := rfl
theorem yrC_amount (j : Fin 16) : (yrC j).view.amount (SemLoc.dma (ryS j)) = N := rfl

theorem wp_waitCell (K : Dev nD × Fin 70 → ℕ) (c : Dev nD) (i : Fin 70) (hi : i.val ≠ 0) (O : CellTallies nD τ sig Unit) (W : Waits sig Unit)
    {sp' sp : Space} {s' s : Shape} {e' e : EltTy} {κ' : Kind}
    {src : Memref sig (c : Thread nD τ).2.kind sp' s' e'} {dst : Memref sig κ' sp s e} {hsrc : src.view.WordExact} {hdst : dst.view.WordExact}
    (hex : (sched (F := F) m).expect ((c : Thread nD τ), SemLoc.dma (i : DmaSem sig)) 0 = dst.view.dmaCredit)
    {α : Type} {Q : α → sProp 𝕄} {k : PUnit → Prog (TpuEff nD τ sig (Elt F) Λ₀ .tc) α} :
    iprop(records m K ∗ cred (tallyAt ((c : Thread nD τ), SemLoc.dma (i : DmaSem sig)) () dst.view.dmaCredit)
        ∗ owes (c : Thread nD τ) O W ∗ MayWait (c : Thread nD τ) (SemLoc.dma (i : DmaSem sig)) () O
        ∗ atPos ER ((c : Thread nD τ), SemLoc.dma (i : DmaSem sig)) 0 ∅ 0)
      ⊢ iprop(((owes (c : Thread nD τ) O (insert (SemLoc.dma (i : DmaSem sig), ()) W)
              ∗ atPos ER ((c : Thread nD τ), SemLoc.dma (i : DmaSem sig)) 1 ∅ 0
              ∗ bigSep ((sched (F := F) m).duties ((c : Thread nD τ), SemLoc.dma (i : DmaSem sig)) 0 \ ∅)
                  (fun d => (sched (F := F) m).payload ((c : Thread nD τ), SemLoc.dma (i : DmaSem sig)) 0 d))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (i : DmaSem sig) src dst hsrc hdst) k) Q) := by
  iintro ⟨#Hrec, Hc, HO, Hlev, Hat⟩ Hk
  ihave HI := (inv_dma m K c i hi) $$ Hrec
  iapply (Rounds.wp_wait_rest_token 𝒱₀ ER (sched (F := F) m) (c : Thread nD τ) none (κ := K (c, i))
      (w := .waitDma2 (i : DmaSem sig) src dst hsrc hdst)
      (wpE_waitDma2_eq 𝒱₀ (c : Thread nD τ) none Set.univ) (Set.mem_univ _) () (O := O) (W := W) (R := 0) (m := 0) (T := ∅)
      (by rw [Nat.zero_add, hex])) $$ [$HI $Hc $HO $Hlev $Hat]
  iintro ⟨HO, Hat, -, Hpay⟩
  iapply Hk
  isplitl [HO]; · iexact HO
  isplitl [Hat]; · iexact Hat
  iexact Hpay

theorem wp_waitXv (K : Dev nD × Fin 70 → ℕ) (c : Dev nD)  (O : CellTallies nD τ sig Unit) (W : Waits sig Unit)
    {sp' sp : Space} {s' s : Shape} {e' e : EltTy} {κ' : Kind}
    {src : Memref sig (c : Thread nD τ).2.kind sp' s' e'} {dst : Memref sig κ' sp s e} {hsrc : src.view.WordExact} {hdst : dst.view.WordExact}
    (hcr : dst.view.dmaCredit = xvM.view.dmaCredit)
    {α : Type} {Q : α → sProp 𝕄} {k : PUnit → Prog (TpuEff nD τ sig (Elt F) Λ₀ .tc) α} :
    iprop(records m K ∗ cred (tallyAt (xvCell c) () (xvM.view.dmaCredit)) ∗ owes (c : Thread nD τ) O W ∗ MayWait (c : Thread nD τ) (.dma (xvS)) () O ∗ atPos ER (xvCell c) 0 ∅ 0)
      ⊢ iprop(((owes (c : Thread nD τ) O (insert (SemLoc.dma (xvS), ()) W) ∗ atPos ER (xvCell c) 1 ∅ 0 ∗ xvPay m c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (xvS) src dst hsrc hdst) k) Q) := by
  have h := wp_waitCell m K c xvS xvS_ne O W (src := src) (dst := dst) (hsrc := hsrc) (hdst := hdst)
    (by rw [hcr]; exact expect_xv m c) (Q := Q) (k := k)
  rw [rest_xv, hcr] at h
  exact h

theorem wp_waitDy (K : Dev nD × Fin 70 → ℕ) (c : Dev nD) (b : Fin 4) (O : CellTallies nD τ sig Unit) (W : Waits sig Unit)
    {sp' sp : Space} {s' s : Shape} {e' e : EltTy} {κ' : Kind}
    {src : Memref sig (c : Thread nD τ).2.kind sp' s' e'} {dst : Memref sig κ' sp s e} {hsrc : src.view.WordExact} {hdst : dst.view.WordExact}
    (hcr : dst.view.dmaCredit = (dyvC 0).view.dmaCredit)
    {α : Type} {Q : α → sProp 𝕄} {k : PUnit → Prog (TpuEff nD τ sig (Elt F) Λ₀ .tc) α} :
    iprop(records m K ∗ cred (tallyAt (dyCell c b) () ((dyvC 0).view.dmaCredit)) ∗ owes (c : Thread nD τ) O W ∗ MayWait (c : Thread nD τ) (.dma (dyS b)) () O ∗ atPos ER (dyCell c b) 0 ∅ 0)
      ⊢ iprop(((owes (c : Thread nD τ) O (insert (SemLoc.dma (dyS b), ()) W) ∗ atPos ER (dyCell c b) 1 ∅ 0 ∗ dyPay m c b) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dyS b) src dst hsrc hdst) k) Q) := by
  have h := wp_waitCell m K c (dyS b) (dyS_ne b) O W (src := src) (dst := dst) (hsrc := hsrc) (hdst := hdst)
    (by rw [hcr]; exact expect_dy m c b) (Q := Q) (k := k)
  rw [rest_dy, hcr] at h
  exact h

theorem wp_waitRx (K : Dev nD × Fin 70 → ℕ) (c : Dev nD) (j : Fin 16) (O : CellTallies nD τ sig Unit) (W : Waits sig Unit)
    {sp' sp : Space} {s' s : Shape} {e' e : EltTy} {κ' : Kind}
    {src : Memref sig (c : Thread nD τ).2.kind sp' s' e'} {dst : Memref sig κ' sp s e} {hsrc : src.view.WordExact} {hdst : dst.view.WordExact}
    (hcr : dst.view.dmaCredit = N)
    {α : Type} {Q : α → sProp 𝕄} {k : PUnit → Prog (TpuEff nD τ sig (Elt F) Λ₀ .tc) α} :
    iprop(records m K ∗ cred (tallyAt (rxCell c j) () (N)) ∗ owes (c : Thread nD τ) O W ∗ MayWait (c : Thread nD τ) (.dma (rxS j)) () O ∗ atPos ER (rxCell c j) 0 ∅ 0)
      ⊢ iprop(((owes (c : Thread nD τ) O (insert (SemLoc.dma (rxS j), ()) W) ∗ atPos ER (rxCell c j) 1 ∅ 0 ∗ rxPay m c j) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rxS j) src dst hsrc hdst) k) Q) := by
  have h := wp_waitCell m K c (rxS j) (rxS_ne j) O W (src := src) (dst := dst) (hsrc := hsrc) (hdst := hdst)
    (by rw [hcr]; exact expect_rx m c j) (Q := Q) (k := k)
  rw [rest_rx, hcr] at h
  exact h

theorem wp_waitRy (K : Dev nD × Fin 70 → ℕ) (c : Dev nD) (j : Fin 16) (O : CellTallies nD τ sig Unit) (W : Waits sig Unit)
    {sp' sp : Space} {s' s : Shape} {e' e : EltTy} {κ' : Kind}
    {src : Memref sig (c : Thread nD τ).2.kind sp' s' e'} {dst : Memref sig κ' sp s e} {hsrc : src.view.WordExact} {hdst : dst.view.WordExact}
    (hcr : dst.view.dmaCredit = N)
    {α : Type} {Q : α → sProp 𝕄} {k : PUnit → Prog (TpuEff nD τ sig (Elt F) Λ₀ .tc) α} :
    iprop(records m K ∗ cred (tallyAt (ryCell c j) () (N)) ∗ owes (c : Thread nD τ) O W ∗ MayWait (c : Thread nD τ) (.dma (ryS j)) () O ∗ atPos ER (ryCell c j) 0 ∅ 0)
      ⊢ iprop(((owes (c : Thread nD τ) O (insert (SemLoc.dma (ryS j), ()) W) ∗ atPos ER (ryCell c j) 1 ∅ 0 ∗ ryPay m c j) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (ryS j) src dst hsrc hdst) k) Q) := by
  have h := wp_waitCell m K c (ryS j) (ryS_ne j) O W (src := src) (dst := dst) (hsrc := hsrc) (hdst := hdst)
    (by rw [hcr]; exact expect_ry m c j) (Q := Q) (k := k)
  rw [rest_ry, hcr] at h
  exact h

theorem wp_waitSx (K : Dev nD × Fin 70 → ℕ) (c : Dev nD) (j : Fin 16) (O : CellTallies nD τ sig Unit) (W : Waits sig Unit)
    {sp' sp : Space} {s' s : Shape} {e' e : EltTy} {κ' : Kind}
    {src : Memref sig (c : Thread nD τ).2.kind sp' s' e'} {dst : Memref sig κ' sp s e} {hsrc : src.view.WordExact} {hdst : dst.view.WordExact}
    (hcr : dst.view.dmaCredit = N)
    {α : Type} {Q : α → sProp 𝕄} {k : PUnit → Prog (TpuEff nD τ sig (Elt F) Λ₀ .tc) α} :
    iprop(records m K ∗ cred (tallyAt (sxCell c j) () (N)) ∗ owes (c : Thread nD τ) O W ∗ MayWait (c : Thread nD τ) (.dma (sxS j)) () O ∗ atPos ER (sxCell c j) 0 ∅ 0)
      ⊢ iprop(((owes (c : Thread nD τ) O (insert (SemLoc.dma (sxS j), ()) W) ∗ atPos ER (sxCell c j) 1 ∅ 0 ∗ sxPay m c j) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sxS j) src dst hsrc hdst) k) Q) := by
  have h := wp_waitCell m K c (sxS j) (sxS_ne j) O W (src := src) (dst := dst) (hsrc := hsrc) (hdst := hdst)
    (by rw [hcr]; exact expect_sx m c j) (Q := Q) (k := k)
  rw [rest_sx, hcr] at h
  exact h

theorem wp_waitSy (K : Dev nD × Fin 70 → ℕ) (c : Dev nD) (j : Fin 16) (O : CellTallies nD τ sig Unit) (W : Waits sig Unit)
    {sp' sp : Space} {s' s : Shape} {e' e : EltTy} {κ' : Kind}
    {src : Memref sig (c : Thread nD τ).2.kind sp' s' e'} {dst : Memref sig κ' sp s e} {hsrc : src.view.WordExact} {hdst : dst.view.WordExact}
    (hcr : dst.view.dmaCredit = N)
    {α : Type} {Q : α → sProp 𝕄} {k : PUnit → Prog (TpuEff nD τ sig (Elt F) Λ₀ .tc) α} :
    iprop(records m K ∗ cred (tallyAt (syCell c j) () (N)) ∗ owes (c : Thread nD τ) O W ∗ MayWait (c : Thread nD τ) (.dma (syS j)) () O ∗ atPos ER (syCell c j) 0 ∅ 0)
      ⊢ iprop(((owes (c : Thread nD τ) O (insert (SemLoc.dma (syS j), ()) W) ∗ atPos ER (syCell c j) 1 ∅ 0 ∗ syPay m c j) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (syS j) src dst hsrc hdst) k) Q) := by
  have h := wp_waitCell m K c (syS j) (syS_ne j) O W (src := src) (dst := dst) (hsrc := hsrc) (hdst := hdst)
    (by rw [hcr]; exact expect_sy m c j) (Q := Q) (k := k)
  rw [rest_sy, hcr] at h
  exact h

theorem wp_waitBar (K : Dev nD × Fin 70 → ℕ) (c : Dev nD) (W : Waits sig Unit)
    {α : Type} {Q : α → sProp 𝕄} {k : PUnit → Prog (TpuEff nD τ sig (Elt F) Λ₀ .tc) α} :
    iprop(records m K ∗ cred (tallyAt (barCell c) () 2) ∗ owes (c : Thread nD τ) (O₂ c) W ∗ MayWait (c : Thread nD τ) (.reg barS) () (O₂ c) ∗ atPos ER (barCell c) 0 ∅ 0)
      ⊢ iprop(((owes (c : Thread nD τ) (O₂ c) (insert (SemLoc.reg barS, ()) W) ∗ atPos ER (barCell c) 1 ∅ 0 ∗ scr (xn c) cc0_scratch4 ∗ scr (yn c) cc0_scratch6) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 2) k) Q) := by
  iintro ⟨#Hrec, Hc, HO, Hlev, Hat⟩ Hk
  ihave HI := (inv_bar m K c) $$ Hrec
  iapply (Rounds.wp_wait_rest_token 𝒱₀ ER (sched (F := F) m) (c : Thread nD τ) none (κ := K (c, 0))
      (wpE_semWait_eq 𝒱₀ (c : Thread nD τ) none Set.univ) (Set.mem_univ _) () (O := O₂ c) (W := W) (R := 0) (m := 0) (T := ∅)
      (by rw [expect_bar])) $$ [$HI $Hc $HO $Hlev $Hat]
  iintro ⟨HO, Hat, -, Hpay⟩
  ihave Hpay' := (Entails.of_eq (rest_bar m c)) $$ Hpay
  icases Hpay' with ⟨HX, HY⟩
  iapply Hk
  isplitl [HO]; · iexact HO
  isplitl [Hat]; · iexact Hat
  isplitl [HX]
  · unfold barPayX scr; iexact HX
  · unfold barPayY scr; iexact HY

theorem wp_sendX (K : Dev nD × Fin 70 → ℕ) (c n : Dev nD) (hn : n = xn c) (j : Fin 16)
    (fn : Buf (Elt F) ((rxC j).view.loc ((xn c : Dev nD) : Thread nD τ))) (O : CellTallies nD τ sig Unit) (W : Waits sig Unit)
    {hsc : ((rxC j) : Memref sig (Dev.tc n : Thread nD τ).2.kind .vmem S512x128 .bf16).view.ref.isScScratch = false}
    {hsrc : (psC j).view.WordExact} {hdst : (rxC j).view.WordExact}
    {hsem : DmaTarget.Typed .vmem (.dma (rxS j)) (.remote (Dev.tc n : Thread nD τ) (rxC j) (.dma (sxS j)) hsc)}
    {α : Type} {Q : α → sProp 𝕄} {k : PUnit → Prog (TpuEff nD τ sig (Elt F) Λ₀ .tc) α} :
    iprop(records m K ∗ psPts c j (Vals.PS m c) ∗ rxPts (xn c) j fn ∗ owes (c : Thread nD τ) (O + tallyAt (rxCell (xn c) j) () N) W
        ∗ dutyTok ER (sxCell c j) 0 false ∗ dutyTok ER (rxCell (xn c) j) 0 false)
      ⊢ iprop(((cred (tallyAt (sxCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (psC j) (.remote (Dev.tc n : Thread nD τ) (rxC j) (.dma (sxS j)) hsc) (.dma (rxS j)) hsrc hdst hsem) k) Q) := by
  subst hn
  iintro ⟨#Hrec, Hps, Hrx, HO, Ht1, Ht2⟩ Hk
  ihave HI1 := (inv_dma m K c (sxS j) (sxS_ne j)) $$ Hrec
  ihave HI2 := (inv_dma m K (xn c) (rxS j) (rxS_ne j)) $$ Hrec
  ihave HR1 := (reached_dma m K c (sxS j) (sxS_ne j)) $$ Hrec
  ihave HR2 := (reached_dma m K (xn c) (rxS j) (rxS_ne j)) $$ Hrec
  unfold psPts rxPts
  iapply (Rounds.wp_send_pointsTo 𝒱₀ ER (sched (F := F) m) (c : Thread nD τ) none
      (c' := ((xn c : Dev nD) : Thread nD τ)) (src := psC j) (dst := rxC j) (q := fullShare) (fs := Vals.PS m c) (fd := fn)
      (κ₁ := K (c, sxS j)) (κ₂ := K (xn c, rxS j)) (r₁ := 0) (r₂ := 0) (d₁ := false) (d₂ := false)
      (by rw [duties_sx]; exact Finset.mem_singleton_self _) (by rw [duties_rx]; exact Finset.mem_singleton_self _)
      () () N (rxC_amount j) (amount_sx m c j false) (amount_rx m (xn c) j false) O rfl (W := W)
      (by rw [payload_sx]; exact Entails.rfl)
      (by rw [payload_rx]; unfold rxPay rxPts; rw [xn_xn]; exact Entails.of_eq (BI.Region.is_congr (rx_land m c j fn))))
    $$ [$HI1 $HI2 $HR1 $HR2 $Hps $Hrx $HO $Ht1 $Ht2]
  iexact Hk

theorem wp_sendY (K : Dev nD × Fin 70 → ℕ) (c n : Dev nD) (hn : n = yn c) (j : Fin 16)
    (fn : Buf (Elt F) ((yrC j).view.loc ((yn c : Dev nD) : Thread nD τ))) (O : CellTallies nD τ sig Unit) (W : Waits sig Unit)
    {hsc : ((yrC j) : Memref sig (Dev.tc n : Thread nD τ).2.kind .vmem S512x128 .bf16).view.ref.isScScratch = false}
    {hsrc : (ysC j).view.WordExact} {hdst : (yrC j).view.WordExact}
    {hsem : DmaTarget.Typed .vmem (.dma (ryS j)) (.remote (Dev.tc n : Thread nD τ) (yrC j) (.dma (syS j)) hsc)}
    {α : Type} {Q : α → sProp 𝕄} {k : PUnit → Prog (TpuEff nD τ sig (Elt F) Λ₀ .tc) α} :
    iprop(records m K ∗ ysPts c j (Vals.YS m c) ∗ yrPts (yn c) j fn ∗ owes (c : Thread nD τ) (O + tallyAt (ryCell (yn c) j) () N) W
        ∗ dutyTok ER (syCell c j) 0 false ∗ dutyTok ER (ryCell (yn c) j) 0 false)
      ⊢ iprop(((cred (tallyAt (syCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (ysC j) (.remote (Dev.tc n : Thread nD τ) (yrC j) (.dma (syS j)) hsc) (.dma (ryS j)) hsrc hdst hsem) k) Q) := by
  subst hn
  iintro ⟨#Hrec, Hys, Hyr, HO, Ht1, Ht2⟩ Hk
  ihave HI1 := (inv_dma m K c (syS j) (syS_ne j)) $$ Hrec
  ihave HI2 := (inv_dma m K (yn c) (ryS j) (ryS_ne j)) $$ Hrec
  ihave HR1 := (reached_dma m K c (syS j) (syS_ne j)) $$ Hrec
  ihave HR2 := (reached_dma m K (yn c) (ryS j) (ryS_ne j)) $$ Hrec
  unfold ysPts yrPts
  iapply (Rounds.wp_send_pointsTo 𝒱₀ ER (sched (F := F) m) (c : Thread nD τ) none
      (c' := ((yn c : Dev nD) : Thread nD τ)) (src := ysC j) (dst := yrC j) (q := fullShare) (fs := Vals.YS m c) (fd := fn)
      (κ₁ := K (c, syS j)) (κ₂ := K (yn c, ryS j)) (r₁ := 0) (r₂ := 0) (d₁ := false) (d₂ := false)
      (by rw [duties_sy]; exact Finset.mem_singleton_self _) (by rw [duties_ry]; exact Finset.mem_singleton_self _)
      () () N (yrC_amount j) (amount_sy m c j false) (amount_ry m (yn c) j false) O rfl (W := W)
      (by rw [payload_sy]; exact Entails.rfl)
      (by rw [payload_ry]; unfold ryPay yrPts; rw [yn_yn]; exact Entails.of_eq (BI.Region.is_congr (yr_land m c j fn))))
    $$ [$HI1 $HI2 $HR1 $HR2 $Hys $Hyr $HO $Ht1 $Ht2]
  iexact Hk

theorem wp_copyXv (K : Dev nD × Fin 70 → ℕ) (c : Dev nD) (fd : Buf (Elt F) (xvM.view.loc (c : Thread nD τ)))
    {hsrc : argXM.view.WordExact} {hdst : xvM.view.WordExact} {hsem : DmaTarget.Typed (nD := nD) .hbm (.dma xvS) (DmaTarget.here xvM : DmaTarget (nD := nD) (τ := τ) (sig := sig) (c : Thread nD τ).2 .vmem S1024x1024 .f32)}
    {α : Type} {Q : α → sProp 𝕄} {k : PUnit → Prog (TpuEff nD τ sig (Elt F) Λ₀ .tc) α} :
    iprop(records m K ∗ (argXM.view.loc (c : Thread nD τ) ↦[argXM.view.set]{fullShare} Vals.X m c) ∗ (xvM.view.loc (c : Thread nD τ) ↦[xvM.view.set]{fullShare} fd) ∗ dutyTok ER (xvCell c) 0 false)
      ⊢ iprop((cred (tallyAt (xvCell c) () xvM.view.dmaCredit) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma argXM (.here xvM) (.dma xvS) hsrc hdst hsem) k) Q) := by
  iintro ⟨#Hrec, Hsrc, Hdst, Ht⟩ Hk
  ihave HI := (inv_dma m K c xvS xvS_ne) $$ Hrec
  ihave HR := (reached_dma m K c xvS xvS_ne) $$ Hrec
  iapply (Rounds.wp_copy_pointsTo 𝒱₀ ER (sched (F := F) m) (c : Thread nD τ) none
      (src := argXM) (dst := xvM) (sem := .dma xvS) (q := fullShare) (fs := Vals.X m c) (fd := fd)
      (κ := K (c, xvS)) (r := 0) (d := false)
      (by rw [duties_xv]; exact Finset.mem_singleton_self _) () xvM.view.dmaCredit rfl (amount_xv m c false)
      (by rw [payload_xv, xv_land m c fd]; unfold xvPay; exact Entails.rfl))
    $$ [$HI $HR $Hsrc $Hdst $Ht]
  iexact Hk

theorem wp_copyDy (K : Dev nD × Fin 70 → ℕ) (c : Dev nD) (b : Fin 4) (fd : Buf (Elt F) ((dyvC b).view.loc (c : Thread nD τ)))
    {hsrc : (dySrc c b).view.WordExact} {hdst : (dyvC b).view.WordExact} {hsem : DmaTarget.Typed (nD := nD) .hbm (.dma (dyS b)) (DmaTarget.here (dyvC b) : DmaTarget (nD := nD) (τ := τ) (sig := sig) (c : Thread nD τ).2 .vmem S1024x512 .f32)}
    {α : Type} {Q : α → sProp 𝕄} {k : PUnit → Prog (TpuEff nD τ sig (Elt F) Λ₀ .tc) α} :
    iprop(records m K ∗ ((dySrc c b).view.loc (c : Thread nD τ) ↦[(dySrc c b).view.set]{fullShare} Vals.D m c) ∗ ((dyvC b).view.loc (c : Thread nD τ) ↦[(dyvC b).view.set]{fullShare} fd) ∗ dutyTok ER (dyCell c b) 0 false)
      ⊢ iprop((cred (tallyAt (dyCell c b) () (dyvC 0).view.dmaCredit) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (dySrc c b) (.here (dyvC b)) (.dma (dyS b)) hsrc hdst hsem) k) Q) := by
  iintro ⟨#Hrec, Hsrc, Hdst, Ht⟩ Hk
  ihave HI := (inv_dma m K c (dyS b) (dyS_ne b)) $$ Hrec
  ihave HR := (reached_dma m K c (dyS b) (dyS_ne b)) $$ Hrec
  iapply (Rounds.wp_copy_pointsTo 𝒱₀ ER (sched (F := F) m) (c : Thread nD τ) none
      (src := dySrc c b) (dst := dyvC b) (sem := .dma (dyS b)) (q := fullShare) (fs := Vals.D m c) (fd := fd)
      (κ := K (c, dyS b)) (r := 0) (d := false)
      (by rw [duties_dy]; exact Finset.mem_singleton_self _) () (dyvC 0).view.dmaCredit (dyvC_amount b) (amount_dy m c b false)
      (by
        rw [payload_dy]; unfold dyPay
        exact sep_mono_left (Entails.of_eq (BI.Region.is_congr (dy_land m c b fd)))))
    $$ [$HI $HR $Hsrc $Hdst $Ht]
  iexact Hk

theorem wp_sigX (K : Dev nD × Fin 70 → ℕ) (c n : Dev nD) (hn : n = xn c) (O : CellTallies nD τ sig Unit) (W : Waits sig Unit)
    {α : Type} {Q : α → sProp 𝕄} {k : PUnit → Prog (TpuEff nD τ sig (Elt F) Λ₀ .tc) α} :
    iprop(records m K ∗ owes (c : Thread nD τ) (O + tallyAt (barCell (xn c)) () 1) W ∗ dutyTok ER (barCell (xn c)) 0 false ∗ scr c cc0_scratch4)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS 1) k) Q) := by
  subst hn
  iintro ⟨#Hrec, HO, Ht, Hscr⟩ Hk
  ihave HI := (inv_bar m K (xn c)) $$ Hrec
  ihave HR := (reached_bar m K (xn c)) $$ Hrec
  iapply (Rounds.wp_signal 𝒱₀ ER (sched (F := F) m) (c : Thread nD τ) none (dst := ((xn c : Dev nD) : Thread nD τ)) (κ := K (xn c, 0))
      (r := 0) (d := false) (by rw [duties_bar]; exact Finset.mem_univ _) (amount_bar m (xn c) false) () O rfl (W := W))
    $$ [$HI $HO $Ht Hscr]
  · isplitl [Hscr]
    · rw [payload_bar_false]; unfold barPayX; rw [xn_xn]; unfold scr; iexact Hscr
    · iexact HR
  iexact Hk

theorem wp_sigY (K : Dev nD × Fin 70 → ℕ) (c n : Dev nD) (hn : n = yn c) (O : CellTallies nD τ sig Unit) (W : Waits sig Unit)
    {α : Type} {Q : α → sProp 𝕄} {k : PUnit → Prog (TpuEff nD τ sig (Elt F) Λ₀ .tc) α} :
    iprop(records m K ∗ owes (c : Thread nD τ) (O + tallyAt (barCell (yn c)) () 1) W ∗ dutyTok ER (barCell (yn c)) 0 true ∗ scr c cc0_scratch6)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS 1) k) Q) := by
  subst hn
  iintro ⟨#Hrec, HO, Ht, Hscr⟩ Hk
  ihave HI := (inv_bar m K (yn c)) $$ Hrec
  ihave HR := (reached_bar m K (yn c)) $$ Hrec
  iapply (Rounds.wp_signal 𝒱₀ ER (sched (F := F) m) (c : Thread nD τ) none (dst := ((yn c : Dev nD) : Thread nD τ)) (κ := K (yn c, 0))
      (r := 0) (d := true) (by rw [duties_bar]; exact Finset.mem_univ _) (amount_bar m (yn c) true) () O rfl (W := W))
    $$ [$HI $HO $Ht Hscr]
  · isplitl [Hscr]
    · rw [payload_bar_true]; unfold barPayY; rw [yn_yn]; unfold scr; iexact Hscr
    · iexact HR
  iexact Hk

theorem close_dma (K : Dev nD × Fin 70 → ℕ) (c : Dev nD) (i : Fin 70) (hi : i.val ≠ 0) :
    iprop(records m K ∗ atPos ER ((c : Thread nD τ), SemLoc.dma (i : DmaSem sig)) 1 ∅ 0)
      ⊢ (|={Set.univ}=> semVal ((c : Thread nD τ), SemLoc.dma (i : DmaSem sig)) 0 : sProp 𝕄) := by
  iintro ⟨#Hrec, Hat⟩
  ihave HI := (inv_dma m K c i hi) $$ Hrec
  iapply (Rounds.cell_close ER (sched (F := F) m) (Set.mem_univ (K (c, i))) (fun h => h) (R := 1)
    (duties_later m ((c : Thread nD τ), SemLoc.dma (i : DmaSem sig))))
  isplitr; · iexact HI
  iexact Hat

end Cert.KernelIdeal.Sched

end
-- ==== Proof.KernelIdealH.Levels.lean ====
import proofs.«901045_g7700000000001046_dist_rsdw_v7x_xy2x2_x_m1024_d1024_f4096_f32_1_alg».proof.Proof.KernelIdealH.Inv

noncomputable section

namespace Cert.KernelIdeal.Sched

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem filter_peel (n : ℕ) (h : n < 16) :
    (Finset.univ : Finset (Fin 16)).filter (fun j => n ≤ j.val)
      = insert (⟨n, h⟩ : Fin 16) ((Finset.univ : Finset (Fin 16)).filter (fun j => n + 1 ≤ j.val)) := by
  ext j
  simp only [Finset.mem_filter, Finset.mem_univ, true_and, Finset.mem_insert, Fin.ext_iff]
  omega

theorem not_mem_peel (n : ℕ) (h : n < 16) :
    (⟨n, h⟩ : Fin 16) ∉ (Finset.univ : Finset (Fin 16)).filter (fun j => n + 1 ≤ j.val) :=
  fun hm => absurd (Finset.mem_filter.mp hm).2 (Nat.not_succ_le_self n)

theorem oweX_peel (c : Dev nD) (n : ℕ) (h : n < 16) :
    oweX c n = oweX c (n + 1) + tallyAt (rxCell (xn c) ⟨n, h⟩) () N := by
  unfold oweX
  rw [filter_peel n h, Finset.sum_insert (not_mem_peel n h), add_comm]

theorem oweX_end (c : Dev nD) : oweX c 16 = 0 := by
  unfold oweX
  refine Finset.sum_eq_zero fun j hj => absurd (Finset.mem_filter.mp hj).2 ?_
  have := j.isLt
  omega

theorem oweY_peel (c : Dev nD) (n : ℕ) (h : n < 16) :
    oweY c n = oweY c (n + 1) + tallyAt (ryCell (yn c) ⟨n, h⟩) () N := by
  unfold oweY
  rw [filter_peel n h, Finset.sum_insert (not_mem_peel n h), add_comm]

theorem oweY_end (c : Dev nD) : oweY c 16 = 0 := by
  unfold oweY
  refine Finset.sum_eq_zero fun j hj => absurd (Finset.mem_filter.mp hj).2 ?_
  have := j.isLt
  omega

theorem lv_reg (t : Thread nD τ) (s : Sem sig) : lv (t, SemLoc.reg s) () = 1 := rfl

theorem lv_rx (d : Dev nD) (j : Fin 16) : lv ((d : Thread nD τ), SemLoc.dma (rxS j)) () = 2 := by
  have hj := j.isLt
  show (if 22 ≤ 22 + j.val ∧ 22 + j.val < 38 then 2 else if 54 ≤ 22 + j.val then 3 else 0) = 2
  rw [if_pos ⟨by omega, by omega⟩]

theorem lv_ry (d : Dev nD) (j : Fin 16) : lv ((d : Thread nD τ), SemLoc.dma (ryS j)) () = 3 := by
  have hj := j.isLt
  show (if 22 ≤ 54 + j.val ∧ 54 + j.val < 38 then 2 else if 54 ≤ 54 + j.val then 3 else 0) = 3
  rw [if_neg (by omega), if_pos (by omega)]

theorem lv_low (t : Thread nD τ) (q : DmaSem sig) (hq : q.val < 22 ∨ (38 ≤ q.val ∧ q.val < 54)) :
    lv (t, SemLoc.dma q) () = 0 := by
  show (if 22 ≤ q.val ∧ q.val < 38 then 2 else if 54 ≤ q.val then 3 else 0) = 0
  rw [if_neg (by omega), if_neg (by omega)]

def OwesAbove (k : ℕ) (O : CellTallies nD τ sig Unit) : Prop := ∀ g u, 0 < O g u → g.1.2 = .tc ∧ k < lv g u

theorem owesAbove_add {k : ℕ} {O₁' O₂' : CellTallies nD τ sig Unit} (h₁ : OwesAbove k O₁') (h₂ : OwesAbove k O₂') :
    OwesAbove k (O₁' + O₂') := fun g u h => (Pipeline.add_pos_cases h).elim (h₁ g u) (h₂ g u)

theorem owesAbove_sum {α : Type} {k : ℕ} {s : Finset α} {D : α → CellTallies nD τ sig Unit}
    (h : ∀ x ∈ s, OwesAbove k (D x)) : OwesAbove k (∑ x ∈ s, D x) := fun g u hg => by
  obtain ⟨x, hx, hpos⟩ := Pipeline.sum_pos_exists hg
  exact h x hx g u hpos

theorem owesAbove_tallyAt {k : ℕ} (g : GSem nD τ sig) (n : ℕ) (htc : g.1.2 = .tc) (hk : k < lv g ()) :
    OwesAbove k (tallyAt g () n) := fun g' u h => by
  obtain ⟨rfl, rfl⟩ := Pipeline.tallyAt_pos h
  exact ⟨htc, hk⟩

theorem owesAbove_mono {k k' : ℕ} {O : CellTallies nD τ sig Unit} (h : OwesAbove k O) (hk : k' ≤ k) : OwesAbove k' O :=
  fun g u hg => ⟨(h g u hg).1, lt_of_le_of_lt hk (h g u hg).2⟩

theorem owesAbove_oweX (c : Dev nD) (n : ℕ) : OwesAbove 1 (oweX c n) :=
  owesAbove_sum fun j _ => owesAbove_tallyAt _ _ rfl (by rw [lv_rx]; decide)

theorem owesAbove_oweY (c : Dev nD) (n : ℕ) : OwesAbove 2 (oweY c n) :=
  owesAbove_sum fun j _ => owesAbove_tallyAt _ _ rfl (by rw [lv_ry]; decide)

omit [FloatOps F] in
theorem mayWait_of (c : Dev nD) (sm : SemLoc sig) (O : CellTallies nD τ sig Unit)
    (h : OwesAbove (lv ((c : Thread nD τ), sm) ()) O) :
    (levAts L lv : sProp 𝕄) ⊢ MayWait (c : Thread nD τ) sm () O :=
  Pipeline.mayWait_of_levAts (by rw [L_tc]; exact Finset.mem_singleton_self _)
    (fun g u hg => ⟨by unfold L; rw [if_pos (h g u hg).1]; exact Finset.mem_singleton.mpr (Subsingleton.elim _ _),
      (h g u hg).2⟩)

omit [FloatOps F] in
theorem mayWait_local (c : Dev nD) (q : DmaSem sig) (hq : q.val < 22 ∨ (38 ≤ q.val ∧ q.val < 54)) (ny nx : ℕ) :
    (levAts L lv : sProp 𝕄) ⊢ MayWait (c : Thread nD τ) (.dma q) () (oweY c ny + oweX c nx) :=
  mayWait_of c _ _ (by
    rw [lv_low _ q hq]
    exact owesAbove_add (owesAbove_mono (owesAbove_oweY c ny) (by decide)) (owesAbove_mono (owesAbove_oweX c nx) (by decide)))

omit [FloatOps F] in
theorem mayWait_bar (c : Dev nD) :
    (levAts L lv : sProp 𝕄) ⊢ MayWait (c : Thread nD τ) (.reg barS) () (O₂ c) :=
  mayWait_of c _ _ (by
    rw [lv_reg]
    exact owesAbove_add (owesAbove_mono (owesAbove_oweY c 0) (by decide)) (owesAbove_oweX c 0))

omit [FloatOps F] in
theorem mayWait_rx (c : Dev nD) (j : Fin 16) (ny : ℕ) :
    (levAts L lv : sProp 𝕄) ⊢ MayWait (c : Thread nD τ) (.dma (rxS j)) () (oweY c ny) :=
  mayWait_of c _ _ (by rw [lv_rx]; exact owesAbove_oweY c ny)

end Cert.KernelIdeal.Sched

end
-- ==== Proof.KernelIdealH.ReadsDefs.lean ====
import proofs.«901045_g7700000000001046_dist_rsdw_v7x_xy2x2_x_m1024_d1024_f4096_f32_1_alg».proof.Proof.KernelIdealH.Sched

noncomputable section

namespace Cert.KernelIdeal.Sched

open Cert.KernelIdeal Cert.KernelIdeal.Gen Cert.KernelIdeal.Mesh
open Idealize.ShloMosaic Idealize.ShloMosaic.TcCoe Idealize.ShloMosaic.ValueIdx Idealize.SL.Sem

variable {F : FTy → Type} [FloatOps F]
variable (m : (ℓ : Loc nD τ sig) → Buf (Elt F) ℓ)

abbrev pmM : Memref sig .tc .vmem S512x2048 .f32 := Memref.whole cc0_scratch3
abbrev outM : Memref sig .tc .vmem S512x4096 .f32 := Memref.whole cc0_stg0_0

theorem block_inb (b : Fin 4) : ∀ a, (![0, 512 * b.val] : Fin 2 → Nat) a + S512x512.size a ≤ S512x2048.size a := by
  revert b; decide

abbrev blockR (b : Fin 4) : Rect S512x2048 := Rect.unit (s := S512x2048) ![0, 512 * b.val] S512x512.size (block_inb b)

abbrev outR (c : Dev nD) (j : Fin 16) : Rect S512x4096 :=
  Rect.unit (s := S512x4096) (k0_off4 c (BitVec.ofNat 32 (128 * j.val))) S512x128.size (k0_off4_inb c j)
abbrev outR' (c : Dev nD) (j : Fin 16) : Rect S512x4096 :=
  Rect.unit (s := S512x4096) (k0_off5 c (BitVec.ofNat 32 (128 * j.val))) S512x128.size (k0_off5_inb c j)

def pmSt (c : Dev nD) (f0 : Buf (Elt F) (pmM.view.loc (c : Thread nD τ))) (n : Nat) : Buf (Elt F) (pmM.view.loc (c : Thread nD τ)) :=
  fun i => if (i 1).val < 512 * n then Vals.PM m c i else f0 i

def outSt (c : Dev nD) (f0 : Buf (Elt F) (outM.view.loc (c : Thread nD τ))) (n₁ n₂ : Nat) : Buf (Elt F) (outM.view.loc (c : Thread nD τ)) :=
  fun i =>
    if 2048 * (c.val % 2) ≤ (i 1).val ∧ (i 1).val < 2048 * (c.val % 2) + 128 * n₁ then Vals.OUT m c i
    else if 2048 * (1 - c.val % 2) ≤ (i 1).val ∧ (i 1).val < 2048 * (1 - c.val % 2) + 128 * n₂ then Vals.OUT m c i
    else f0 i

end Cert.KernelIdeal.Sched

end
-- ==== Proof.KernelIdealH.ReadsLoad.lean ====
import proofs.«901045_g7700000000001046_dist_rsdw_v7x_xy2x2_x_m1024_d1024_f4096_f32_1_alg».proof.Proof.KernelIdealH.ReadsDefs
import Idealize.ShloMosaic.Lib.Pipeline.Value

noncomputable section

namespace Cert.KernelIdeal.Sched

open Cert.KernelIdeal Cert.KernelIdeal.Gen Cert.KernelIdeal.Mesh
open Idealize.ShloMosaic Idealize.ShloMosaic.TcCoe Idealize.ShloMosaic.ValueIdx Idealize.SL.Sem

variable {F : FTy → Type} [FloatOps F]
variable (m : (ℓ : Loc nD τ sig) → Buf (Elt F) ℓ)

theorem chunk_emb (j : Fin 16) (x : (chunkR j).shape.Idx) :
    (chunkR j).emb x = ix2 (n0 := 512) (n1 := 2048) (x 0) ⟨128 * j.val + (x 1).val, by
      have h1 : (x 1).val < 128 := (x 1).isLt; have := j.isLt; omega⟩ := by
  funext a; apply Fin.ext
  match a with
  | ⟨0, _⟩ => show 0 + 1 * (x 0).val = (x 0).val; omega
  | ⟨1, _⟩ => show 128 * j.val + 1 * (x 1).val = 128 * j.val + (x 1).val; omega

theorem load_Xo (c : Dev nD) :
    xvM.view.readAt (Elt F) (Rect.unit (s := S1024x1024) (k0_off2 c) S1024x512.size (k0_off2_inb c)).toLoadRect (Vals.X m c)
      = Vals.Xo m c := by
  funext x
  show Vals.X m c ((Rect.unit (s := S1024x1024) (k0_off2 c) S1024x512.size (k0_off2_inb c)).emb x) = Vals.X m c (ix2 _ _)
  refine congrArg (Vals.X m c) (funext fun a => Fin.ext ?_)
  have h := k0_off2_eq c
  match a with
  | ⟨0, _⟩ =>
    show (k0_off2 c) 0 + 1 * (x 0).val = (x 0).val
    have h0 : (k0_off2 c) 0 = 0 := by rw [h]; rfl
    omega
  | ⟨1, _⟩ =>
    show (k0_off2 c) 1 + 1 * (x 1).val = 512 - 512 * (c.val / 2) + (x 1).val
    have h1 : (k0_off2 c) 1 = 512 - 512 * (c.val / 2) := by rw [h]; rfl
    omega

theorem load_Xm (c : Dev nD) :
    xvM.view.readAt (Elt F) (Rect.unit (s := S1024x1024) (k0_off3 c) S1024x512.size (k0_off3_inb c)).toLoadRect (Vals.X m c)
      = Vals.Xm m c := by
  funext x
  show Vals.X m c ((Rect.unit (s := S1024x1024) (k0_off3 c) S1024x512.size (k0_off3_inb c)).emb x) = Vals.X m c (ix2 _ _)
  refine congrArg (Vals.X m c) (funext fun a => Fin.ext ?_)
  have h := k0_off3_eq c
  match a with
  | ⟨0, _⟩ =>
    show (k0_off3 c) 0 + 1 * (x 0).val = (x 0).val
    have h0 : (k0_off3 c) 0 = 0 := by rw [h]; rfl
    omega
  | ⟨1, _⟩ =>
    show (k0_off3 c) 1 + 1 * (x 1).val = 512 * (c.val / 2) + (x 1).val
    have h1 : (k0_off3 c) 1 = 512 * (c.val / 2) := by rw [h]; rfl
    omega

theorem load_Dy (c : Dev nD) (b : Fin 4) :
    dyvM.view.readAt (Elt F) (Rect.unit (s := S1024x2048) ![0, 512 * b.val] S1024x512.size (dyblk_inb b)).toLoadRect (Vals.DYV m c)
      = Vals.Dy m c b := by
  funext x
  show Vals.D m c (ix2 _ _) = Vals.D m c (ix2 _ _)
  refine congrArg (Vals.D m c) (funext fun a => Fin.ext ?_)
  match a with
  | ⟨0, _⟩ => show 0 + 1 * (x 0).val = (x 0).val; omega
  | ⟨1, _⟩ =>
    show 2048 * (c.val % 2) + (512 * b.val + 1 * (x 1).val) = 2048 * (c.val % 2) + 512 * b.val + (x 1).val
    omega

theorem load_pm (c : Dev nD) (j : Fin 16) :
    pmM.view.readAt (Elt F) (chunkR j).toLoadRect (Vals.PM m c) = Vals.pmC m c j := by
  funext x
  show Vals.PM m c ((chunkR j).emb x) = Vals.PM m c (ix2 _ _)
  rw [chunk_emb]

theorem load_rx (c : Dev nD) (j : Fin 16) :
    rxM.view.readAt (Elt F) (chunkR j).toLoadRect (Vals.PS m (xn c)) = Vals.rxC m c j := by
  funext x
  show Vals.PS m (xn c) ((chunkR j).emb x) = Vals.PS m (xn c) (ix2 _ _)
  rw [chunk_emb]

theorem load_yr (c : Dev nD) (j : Fin 16) :
    yrM.view.readAt (Elt F) (chunkR j).toLoadRect (Vals.YS m (yn c)) = Vals.yrC m c j := by
  funext x
  show Vals.YS m (yn c) ((chunkR j).emb x) = Vals.YS m (yn c) (ix2 _ _)
  rw [chunk_emb]

end Cert.KernelIdeal.Sched

end
-- ==== Proof.KernelIdealH.ReadsKit.lean ====
import Idealize.ShloMosaic.Lib.Pipeline.Value
import Idealize.ShloMosaic.Signature.Memref

noncomputable section

namespace Cert.KernelIdeal.ReadsKit

open Idealize.ShloMosaic Idealize.SL.Sem

variable {sig : RefSig} {κ : Kind} {Val : EltTy → Type}

theorem mem_slice_iff (b : Ref sig κ) (off size : Fin b.ty.shape.rank → Nat) (inb : ∀ a, off a + size a ≤ b.ty.shape.size a)
    (i : b.ty.shape.Idx) :
    i ∈ ((View.whole b).slice (Rect.unit off size inb)).set ↔ ∀ a, off a ≤ (i a).val ∧ (i a).val < off a + size a := by
  rw [View.set_slice_whole, Rect.mem_set_unit]

theorem write_slice_in (b : Ref sig κ) (off size : Fin b.ty.shape.rank → Nat) (inb : ∀ a, off a + size a ≤ b.ty.shape.size a)
    (f : b.ty.Contents Val) (w : (Rect.unit off size inb).shape.Idx → Val b.ty.elt) (i : b.ty.shape.Idx)
    (hin : ∀ a, off a ≤ (i a).val ∧ (i a).val < off a + size a) :
    ((View.whole b).slice (Rect.unit off size inb)).write Val f w Finset.univ i
      = w (fun a => ⟨(i a).val - off a, by have := hin a; show (i a).val - off a < size a; omega⟩) := by
  rw [View.write_whole_slice_unit]
  unfold updateSlice
  split
  · rfl
  · next h => exact absurd hin h

theorem write_slice_out (b : Ref sig κ) (off size : Fin b.ty.shape.rank → Nat) (inb : ∀ a, off a + size a ≤ b.ty.shape.size a)
    (f : b.ty.Contents Val) (w : (Rect.unit off size inb).shape.Idx → Val b.ty.elt) (i : b.ty.shape.Idx)
    (hout : ¬ ∀ a, off a ≤ (i a).val ∧ (i a).val < off a + size a) :
    ((View.whole b).slice (Rect.unit off size inb)).write Val f w Finset.univ i = f i := by
  rw [View.write_whole_slice_unit]
  unfold updateSlice
  split
  · next h => exact absurd h hout
  · rfl

end Cert.KernelIdeal.ReadsKit

end
-- ==== Proof.KernelIdealH.ReadsStore.lean ====
import proofs.«901045_g7700000000001046_dist_rsdw_v7x_xy2x2_x_m1024_d1024_f4096_f32_1_alg».proof.Proof.KernelIdealH.ReadsDefs
import proofs.«901045_g7700000000001046_dist_rsdw_v7x_xy2x2_x_m1024_d1024_f4096_f32_1_alg».proof.Proof.KernelIdealH.ReadsKit

noncomputable section

namespace Cert.KernelIdeal.Sched

open Cert.KernelIdeal Cert.KernelIdeal.Gen Cert.KernelIdeal.Mesh
open Idealize.ShloMosaic Idealize.ShloMosaic.TcCoe Idealize.ShloMosaic.ValueIdx Idealize.SL.Sem
open Cert.KernelIdeal.ReadsKit

variable {F : FTy → Type} [FloatOps F]
variable (m : (ℓ : Loc nD τ sig) → Buf (Elt F) ℓ)

theorem glue_at {R W : Nat} {e : EltTy} (n C : Nat) (hC : C = n * W) (hW : 0 < W) (blk : Fin n → Vec F ⟨2, ![R, W]⟩ e)
    (i : (⟨2, ![R, C]⟩ : Shape).Idx) (b : Fin n) (y : (⟨2, ![R, W]⟩ : Shape).Idx)
    (hb : (i 1).val / W = b.val) (h0 : (y 0).val = (i 0).val) (h1 : (y 1).val = (i 1).val % W) :
    Vals.glue n C hC hW blk i = blk b y := by
  unfold Vals.glue
  have e1 : (⟨(i 1).val / W, Vals.glue_lt hC (i 1).isLt⟩ : Fin n) = b := Fin.ext hb
  rw [e1]
  refine congrArg (blk b) (funext fun a => Fin.ext ?_)
  match a with
  | ⟨0, _⟩ => exact h0.symm
  | ⟨1, _⟩ => exact h1.symm

theorem ps_store_in (c : Dev nD) (b : Fin 4) (j : Fin 16) (f : Buf (Elt F) (psM.view.loc (c : Thread nD τ))) :
    ∀ i ∈ (psC j).view.set, j.val / 4 = b.val →
      (psM.access (blockR b)).write (Elt F) f (Vals.ps m c b) Finset.univ i = Vals.PS m c i := by
  intro i hi hjb
  have hi' := (mem_slice_iff cc0_scratch2 _ _ (chunk_inb j) i).mp hi
  have h1 : 128 * j.val ≤ (i 1).val ∧ (i 1).val < 128 * j.val + 128 := hi' 1
  have h0 : (i 0).val < 512 := (i 0).isLt
  have hin : ∀ a, (![0, 512 * b.val] : Fin 2 → Nat) a ≤ (i a).val ∧ (i a).val < (![0, 512 * b.val] : Fin 2 → Nat) a + S512x512.size a := by
    intro a
    match a with
    | ⟨0, _⟩ => exact ⟨Nat.zero_le _, by show (i 0).val < 0 + 512; omega⟩
    | ⟨1, _⟩ => exact ⟨by show 512 * b.val ≤ (i 1).val; omega, by show (i 1).val < 512 * b.val + 512; omega⟩
  refine (write_slice_in cc0_scratch2 _ _ (block_inb b) f (Vals.ps m c b) i hin).trans ?_
  refine (glue_at 4 2048 (by decide) (by decide) (Vals.ps m c) i b _ (by omega) ?_ ?_).symm
  · show (i 0).val - 0 = (i 0).val; omega
  · show (i 1).val - 512 * b.val = (i 1).val % 512; omega

theorem ys_store_in (c : Dev nD) (j : Fin 16) (f : Buf (Elt F) (ysM.view.loc (c : Thread nD τ))) :
    ∀ i ∈ (ysC j).view.set, (ysM.access (chunkR j)).write (Elt F) f (Vals.ysC m c j) Finset.univ i = Vals.YS m c i := by
  intro i hi
  have hi' := (mem_slice_iff cc0_scratch5 _ _ (chunk_inb j) i).mp hi
  have h1 : 128 * j.val ≤ (i 1).val ∧ (i 1).val < 128 * j.val + 128 := hi' 1
  refine (write_slice_in cc0_scratch5 _ _ (chunk_inb j) f (Vals.ysC m c j) i hi').trans ?_
  refine (glue_at 16 2048 (by decide) (by decide) (Vals.ysC m c) i j _ (by omega) ?_ ?_).symm
  · show (i 0).val - 0 = (i 0).val; omega
  · show (i 1).val - 128 * j.val = (i 1).val % 128; omega

theorem pm_store (c : Dev nD) (b : Fin 4) (f0 : Buf (Elt F) (pmM.view.loc (c : Thread nD τ))) :
    (pmM.access (blockR b)).write (Elt F) (pmSt m c f0 b.val) (Vals.pm m c b) Finset.univ = pmSt m c f0 (b.val + 1) := by
  funext i
  have h0 : (i 0).val < 512 := (i 0).isLt
  by_cases hin : 512 * b.val ≤ (i 1).val ∧ (i 1).val < 512 * b.val + 512
  · have hin' : ∀ a, (![0, 512 * b.val] : Fin 2 → Nat) a ≤ (i a).val ∧ (i a).val < (![0, 512 * b.val] : Fin 2 → Nat) a + S512x512.size a := by
      intro a
      match a with
      | ⟨0, _⟩ => exact ⟨Nat.zero_le _, by show (i 0).val < 0 + 512; omega⟩
      | ⟨1, _⟩ => exact hin
    refine (write_slice_in cc0_scratch3 _ _ (block_inb b) (pmSt m c f0 b.val) (Vals.pm m c b) i hin').trans ?_
    unfold pmSt
    rw [if_pos (by omega : (i 1).val < 512 * (b.val + 1))]
    refine (glue_at 4 2048 (by decide) (by decide) (Vals.pm m c) i b _ (by omega) ?_ ?_).symm
    · show (i 0).val - 0 = (i 0).val; omega
    · show (i 1).val - 512 * b.val = (i 1).val % 512; omega
  · refine (write_slice_out cc0_scratch3 _ _ (block_inb b) (pmSt m c f0 b.val) (Vals.pm m c b) i (fun h => hin (h 1))).trans ?_
    unfold pmSt
    by_cases h' : (i 1).val < 512 * b.val
    · rw [if_pos h', if_pos (by omega)]
    · rw [if_neg h', if_neg (by omega)]

theorem pmSt_full (c : Dev nD) (f0 : Buf (Elt F) (pmM.view.loc (c : Thread nD τ))) : pmSt m c f0 4 = Vals.PM m c := by
  funext i
  have h1 : (i 1).val < 2048 := (i 1).isLt
  unfold pmSt
  exact if_pos (by omega)

end Cert.KernelIdeal.Sched

end
-- ==== Proof.KernelIdealH.ReadsOut.lean ====
import proofs.«901045_g7700000000001046_dist_rsdw_v7x_xy2x2_x_m1024_d1024_f4096_f32_1_alg».proof.Proof.KernelIdealH.ReadsStore

noncomputable section

namespace Cert.KernelIdeal.Sched

open Cert.KernelIdeal Cert.KernelIdeal.Gen Cert.KernelIdeal.Mesh
open Idealize.ShloMosaic Idealize.ShloMosaic.TcCoe Idealize.ShloMosaic.ValueIdx Idealize.SL.Sem
open Cert.KernelIdeal.ReadsKit

variable {F : FTy → Type} [FloatOps F]
variable (m : (ℓ : Loc nD τ sig) → Buf (Elt F) ℓ)

theorem OUT_own_at (c : Dev nD) (i : S512x4096.Idx) (j : Fin 16) (y : S512x128.Idx)
    (hh : (i 1).val / 2048 = c.val % 2) (hj : (i 1).val % 2048 / 128 = j.val)
    (h0 : (y 0).val = (i 0).val) (h1 : (y 1).val = (i 1).val % 2048 % 128) :
    Vals.OUT m c i = Vals.sC m c j y := by
  unfold Vals.OUT
  rw [if_pos hh]
  unfold Vals.own
  exact glue_at 16 2048 (by decide) (by decide) (Vals.sC m c) _ j y hj h0 h1

theorem OUT_oth_at (c : Dev nD) (i : S512x4096.Idx) (j : Fin 16) (y : S512x128.Idx)
    (hh : ¬ (i 1).val / 2048 = c.val % 2) (hj : (i 1).val % 2048 / 128 = j.val)
    (h0 : (y 0).val = (i 0).val) (h1 : (y 1).val = (i 1).val % 2048 % 128) :
    Vals.OUT m c i = Vals.oC m c j y := by
  unfold Vals.OUT
  rw [if_neg hh]
  unfold Vals.oth
  exact glue_at 16 2048 (by decide) (by decide) (Vals.oC m c) _ j y hj h0 h1

theorem out_store (c : Dev nD) (j : Fin 16) (n₂ : Nat) (f0 : Buf (Elt F) (outM.view.loc (c : Thread nD τ))) :
    (outM.access (outR c j)).write (Elt F) (outSt m c f0 j.val n₂) (Vals.sC m c j) Finset.univ
      = outSt m c f0 (j.val + 1) n₂ := by
  funext i
  have h0 : (i 0).val < 512 := (i 0).isLt
  have h1lt : (i 1).val < 4096 := (i 1).isLt
  have hj := j.isLt
  have ho := k0_off4_eq c j
  have ho0 : (k0_off4 c (BitVec.ofNat 32 (128 * j.val))) 0 = 0 := by rw [ho]; rfl
  have ho1 : (k0_off4 c (BitVec.ofNat 32 (128 * j.val))) 1 = 2048 * (c.val % 2) + 128 * j.val := by rw [ho]; rfl
  by_cases hin : 2048 * (c.val % 2) + 128 * j.val ≤ (i 1).val ∧ (i 1).val < 2048 * (c.val % 2) + 128 * j.val + 128
  · have hin' : ∀ a, (k0_off4 c (BitVec.ofNat 32 (128 * j.val))) a ≤ (i a).val ∧ (i a).val < (k0_off4 c (BitVec.ofNat 32 (128 * j.val))) a + S512x128.size a := by
      intro a
      match a with
      | ⟨0, _⟩ => exact ⟨by show (k0_off4 c (BitVec.ofNat 32 (128 * j.val))) 0 ≤ (i 0).val; omega, by show (i 0).val < (k0_off4 c (BitVec.ofNat 32 (128 * j.val))) 0 + 512; omega⟩
      | ⟨1, _⟩ => exact ⟨by show (k0_off4 c (BitVec.ofNat 32 (128 * j.val))) 1 ≤ (i 1).val; omega, by show (i 1).val < (k0_off4 c (BitVec.ofNat 32 (128 * j.val))) 1 + 128; omega⟩
    refine (write_slice_in cc0_stg0_0 _ _ (k0_off4_inb c j) (outSt m c f0 j.val n₂) (Vals.sC m c j) i hin').trans ?_
    unfold outSt
    have hA : 2048 * (c.val % 2) ≤ (i 1).val ∧ (i 1).val < 2048 * (c.val % 2) + 128 * (j.val + 1) := ⟨by omega, by omega⟩
    rw [if_pos hA]
    refine (OUT_own_at m c i j _ (by omega) (by omega) ?_ ?_).symm
    · show (i 0).val - (k0_off4 c (BitVec.ofNat 32 (128 * j.val))) 0 = (i 0).val; omega
    · show (i 1).val - (k0_off4 c (BitVec.ofNat 32 (128 * j.val))) 1 = (i 1).val % 2048 % 128; omega
  · have hout : ¬ ∀ a, (k0_off4 c (BitVec.ofNat 32 (128 * j.val))) a ≤ (i a).val ∧ (i a).val < (k0_off4 c (BitVec.ofNat 32 (128 * j.val))) a + S512x128.size a := by
      intro h
      have h1' : (k0_off4 c (BitVec.ofNat 32 (128 * j.val))) 1 ≤ (i 1).val ∧ (i 1).val < (k0_off4 c (BitVec.ofNat 32 (128 * j.val))) 1 + 128 := h 1
      exact hin ⟨by omega, by omega⟩
    refine (write_slice_out cc0_stg0_0 _ _ (k0_off4_inb c j) (outSt m c f0 j.val n₂) (Vals.sC m c j) i hout).trans ?_
    unfold outSt
    by_cases hA : 2048 * (c.val % 2) ≤ (i 1).val ∧ (i 1).val < 2048 * (c.val % 2) + 128 * j.val
    · have hA' : 2048 * (c.val % 2) ≤ (i 1).val ∧ (i 1).val < 2048 * (c.val % 2) + 128 * (j.val + 1) := ⟨by omega, by omega⟩
      rw [if_pos hA, if_pos hA']
    · have hA' : ¬ (2048 * (c.val % 2) ≤ (i 1).val ∧ (i 1).val < 2048 * (c.val % 2) + 128 * (j.val + 1)) :=
        fun h => hA ⟨by omega, by omega⟩
      rw [if_neg hA, if_neg hA']

theorem out_store' (c : Dev nD) (j : Fin 16) (f0 : Buf (Elt F) (outM.view.loc (c : Thread nD τ))) :
    (outM.access (outR' c j)).write (Elt F) (outSt m c f0 16 j.val) (Vals.oC m c j) Finset.univ
      = outSt m c f0 16 (j.val + 1) := by
  funext i
  have h0 : (i 0).val < 512 := (i 0).isLt
  have h1lt : (i 1).val < 4096 := (i 1).isLt
  have hj := j.isLt
  have ho := k0_off5_eq c j
  have ho0 : (k0_off5 c (BitVec.ofNat 32 (128 * j.val))) 0 = 0 := by rw [ho]; rfl
  have ho1 : (k0_off5 c (BitVec.ofNat 32 (128 * j.val))) 1 = (128 * j.val + 2048) - 2048 * (c.val % 2) := by rw [ho]; rfl
  by_cases hin : (128 * j.val + 2048) - 2048 * (c.val % 2) ≤ (i 1).val ∧ (i 1).val < (128 * j.val + 2048) - 2048 * (c.val % 2) + 128
  · have hin' : ∀ a, (k0_off5 c (BitVec.ofNat 32 (128 * j.val))) a ≤ (i a).val ∧ (i a).val < (k0_off5 c (BitVec.ofNat 32 (128 * j.val))) a + S512x128.size a := by
      intro a
      match a with
      | ⟨0, _⟩ => exact ⟨by show (k0_off5 c (BitVec.ofNat 32 (128 * j.val))) 0 ≤ (i 0).val; omega, by show (i 0).val < (k0_off5 c (BitVec.ofNat 32 (128 * j.val))) 0 + 512; omega⟩
      | ⟨1, _⟩ => exact ⟨by show (k0_off5 c (BitVec.ofNat 32 (128 * j.val))) 1 ≤ (i 1).val; omega, by show (i 1).val < (k0_off5 c (BitVec.ofNat 32 (128 * j.val))) 1 + 128; omega⟩
    refine (write_slice_in cc0_stg0_0 _ _ (k0_off5_inb c j) (outSt m c f0 16 j.val) (Vals.oC m c j) i hin').trans ?_
    unfold outSt
    have hA : ¬ (2048 * (c.val % 2) ≤ (i 1).val ∧ (i 1).val < 2048 * (c.val % 2) + 128 * 16) := fun h => by omega
    have hB : 2048 * (1 - c.val % 2) ≤ (i 1).val ∧ (i 1).val < 2048 * (1 - c.val % 2) + 128 * (j.val + 1) := ⟨by omega, by omega⟩
    rw [if_neg hA, if_pos hB]
    refine (OUT_oth_at m c i j _ (by omega) (by omega) ?_ ?_).symm
    · show (i 0).val - (k0_off5 c (BitVec.ofNat 32 (128 * j.val))) 0 = (i 0).val; omega
    · show (i 1).val - (k0_off5 c (BitVec.ofNat 32 (128 * j.val))) 1 = (i 1).val % 2048 % 128; omega
  · have hout : ¬ ∀ a, (k0_off5 c (BitVec.ofNat 32 (128 * j.val))) a ≤ (i a).val ∧ (i a).val < (k0_off5 c (BitVec.ofNat 32 (128 * j.val))) a + S512x128.size a := by
      intro h
      have h1' : (k0_off5 c (BitVec.ofNat 32 (128 * j.val))) 1 ≤ (i 1).val ∧ (i 1).val < (k0_off5 c (BitVec.ofNat 32 (128 * j.val))) 1 + 128 := h 1
      exact hin ⟨by omega, by omega⟩
    refine (write_slice_out cc0_stg0_0 _ _ (k0_off5_inb c j) (outSt m c f0 16 j.val) (Vals.oC m c j) i hout).trans ?_
    unfold outSt
    by_cases hA : 2048 * (c.val % 2) ≤ (i 1).val ∧ (i 1).val < 2048 * (c.val % 2) + 128 * 16
    · rw [if_pos hA, if_pos hA]
    · rw [if_neg hA, if_neg hA]
      by_cases hB : 2048 * (1 - c.val % 2) ≤ (i 1).val ∧ (i 1).val < 2048 * (1 - c.val % 2) + 128 * j.val
      · have hB' : 2048 * (1 - c.val % 2) ≤ (i 1).val ∧ (i 1).val < 2048 * (1 - c.val % 2) + 128 * (j.val + 1) := ⟨by omega, by omega⟩
        rw [if_pos hB, if_pos hB']
      · have hB' : ¬ (2048 * (1 - c.val % 2) ≤ (i 1).val ∧ (i 1).val < 2048 * (1 - c.val % 2) + 128 * (j.val + 1)) :=
          fun h => hB ⟨by omega, by omega⟩
        rw [if_neg hB, if_neg hB']

theorem outSt_full (c : Dev nD) (f0 : Buf (Elt F) (outM.view.loc (c : Thread nD τ))) :
    outSt m c f0 16 16 = Vals.OUT m c := by
  funext i
  have h1lt : (i 1).val < 4096 := (i 1).isLt
  unfold outSt
  by_cases hA : 2048 * (c.val % 2) ≤ (i 1).val ∧ (i 1).val < 2048 * (c.val % 2) + 128 * 16
  · rw [if_pos hA]
  · have hB : 2048 * (1 - c.val % 2) ≤ (i 1).val ∧ (i 1).val < 2048 * (1 - c.val % 2) + 128 * 16 := ⟨by omega, by omega⟩
    rw [if_neg hA, if_pos hB]

end Cert.KernelIdeal.Sched

end
-- ==== Proof.KernelIdealH.RegionsPos.lean ====
import proofs.«901045_g7700000000001046_dist_rsdw_v7x_xy2x2_x_m1024_d1024_f4096_f32_1_alg».proof.Proof.KernelIdealH.Inv

noncomputable section

namespace Cert.KernelIdeal.Sched

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Lists

variable {M : Type _} [URA M] {I J : Type _}

theorem bigSepL_append (l₁ l₂ : List I) (Φ : I → sProp M) :
    bigSepL (l₁ ++ l₂) Φ = BI.sep (bigSepL l₁ Φ) (bigSepL l₂ Φ) := by
  induction l₁ with
  | nil => exact (equiv_iff.mp emp_sep).symm
  | cons i l ih =>
    rw [List.cons_append, bigSepL_cons, bigSepL_cons, ih]
    exact (Std.Associative.assoc (op := (BI.sep : sProp M → sProp M → sProp M)) _ _ _).symm

theorem bigSepL_map (g : J → I) (l : List J) (Φ : I → sProp M) :
    bigSepL (l.map g) Φ = bigSepL l (fun j => Φ (g j)) := by
  induction l with
  | nil => rfl
  | cons j l ih => rw [List.map_cons, bigSepL_cons, bigSepL_cons, ih]

theorem bigSepL_finRange (n : ℕ) (Φ : Fin n → sProp M) : bigSepL (List.finRange n) Φ = bigSep Finset.univ Φ :=
  (bigSep_univ_eq_bigSepL (List.finRange n) (List.toFinset_finRange n).symm (List.nodup_finRange n) Φ).symm

end Lists

omit [FloatOps F] in
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

def kat (o n : ℕ) (h : o + n ≤ 70) (j : Fin n) : Fin 70 := ⟨o + j.val, by have := j.isLt; omega⟩

def cells70 : List (Fin 70) :=
  [0] ++ ([1] ++ ((List.finRange 4).map (kat 2 4 (by decide)) ++ ((List.finRange 16).map (kat 6 16 (by decide))
    ++ ((List.finRange 16).map (kat 22 16 (by decide)) ++ ((List.finRange 16).map (kat 38 16 (by decide))
    ++ (List.finRange 16).map (kat 54 16 (by decide)))))))

theorem cells70_univ : (Finset.univ : Finset (Fin 70)) = cells70.toFinset := by decide
theorem cells70_nodup : cells70.Nodup := by decide

theorem kcell_bar (c : Dev nD) : kcell (c, 0) = barCell c := rfl
theorem kcell_dy (c : Dev nD) (b : Fin 4) : kcell (c, kat 2 4 (by decide) b) = dyCell c b := by
  unfold kcell; rw [if_neg (by show ¬ 2 + b.val = 0; omega)]; rfl
theorem kcell_sx (c : Dev nD) (j : Fin 16) : kcell (c, kat 6 16 (by decide) j) = sxCell c j := by
  unfold kcell; rw [if_neg (by show ¬ 6 + j.val = 0; omega)]; rfl
theorem kcell_rx (c : Dev nD) (j : Fin 16) : kcell (c, kat 22 16 (by decide) j) = rxCell c j := by
  unfold kcell; rw [if_neg (by show ¬ 22 + j.val = 0; omega)]; rfl
theorem kcell_sy (c : Dev nD) (j : Fin 16) : kcell (c, kat 38 16 (by decide) j) = syCell c j := by
  unfold kcell; rw [if_neg (by show ¬ 38 + j.val = 0; omega)]; rfl
theorem kcell_ry (c : Dev nD) (j : Fin 16) : kcell (c, kat 54 16 (by decide) j) = ryCell c j := by
  unfold kcell; rw [if_neg (by show ¬ 54 + j.val = 0; omega)]; rfl

omit [FloatOps F] in
theorem cells_groups (c : Dev nD) (Ψ : GSem nD τ sig → sProp 𝕄) :
    (bigSep Finset.univ fun k : Fin 70 => Ψ (kcell (c, k)))
      = iprop(Ψ (barCell c) ∗ Ψ (xvCell c)
          ∗ (bigSep Finset.univ fun b : Fin 4 => Ψ (dyCell c b))
          ∗ (bigSep Finset.univ fun j : Fin 16 => Ψ (sxCell c j))
          ∗ (bigSep Finset.univ fun j : Fin 16 => Ψ (rxCell c j))
          ∗ (bigSep Finset.univ fun j : Fin 16 => Ψ (syCell c j))
          ∗ (bigSep Finset.univ fun j : Fin 16 => Ψ (ryCell c j))) := by
  rw [bigSep_univ_eq_bigSepL cells70 cells70_univ cells70_nodup]
  unfold cells70
  rw [bigSepL_append, bigSepL_append, bigSepL_append, bigSepL_append, bigSepL_append, bigSepL_append,
    bigSepL_map, bigSepL_map, bigSepL_map, bigSepL_map, bigSepL_map,
    bigSepL_finRange, bigSepL_finRange, bigSepL_finRange, bigSepL_finRange, bigSepL_finRange,
    bigSepL_singleton, bigSepL_singleton]
  simp only [kcell_dy, kcell_sx, kcell_rx, kcell_sy, kcell_ry]
  rfl

end Cert.KernelIdeal.Sched

end
-- ==== Proof.KernelIdealH.Regions.lean ====
import proofs.«901045_g7700000000001046_dist_rsdw_v7x_xy2x2_x_m1024_d1024_f4096_f32_1_alg».proof.Proof.KernelIdealH.Inv
import proofs.«901045_g7700000000001046_dist_rsdw_v7x_xy2x2_x_m1024_d1024_f4096_f32_1_alg».proof.Proof.KernelIdealH.ReadsStore
import proofs.«901045_g7700000000001046_dist_rsdw_v7x_xy2x2_x_m1024_d1024_f4096_f32_1_alg».proof.Proof.KernelIdealH.ReadsLoad
import proofs.«901045_g7700000000001046_dist_rsdw_v7x_xy2x2_x_m1024_d1024_f4096_f32_1_alg».proof.Proof.KernelIdealH.RegionsPos
import Idealize.ShloMosaic.Rules.PointsTo

noncomputable section

namespace Cert.KernelIdeal.Sched

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem pointsTo_cover {T : Type} [Fintype T] [DecidableEq T] {ℓ : Loc nD τ sig} (K : T → Finset (Idx ℓ))
    (hd : ∀ t t', t ≠ t' → Disjoint (K t) (K t')) (hcov : (Finset.univ : Finset T).biUnion K = Finset.univ)
    (f : Buf (Elt F) ℓ) :
    (ℓ ↦{fullShare} f : sProp 𝕄) = bigSep Finset.univ fun t : T => (ℓ ↦[K t]{fullShare} f) := by
  have h : (ℓ ↦[(Finset.univ : Finset T).biUnion K]{fullShare} f : sProp 𝕄)
      = bigSep Finset.univ fun t : T => (ℓ ↦[K t]{fullShare} f) :=
    pointsTo_biUnion Finset.univ K fun t _ t' _ hne => hd t t' hne
  rw [hcov] at h
  exact h

theorem chunkR_disjoint (j j' : Fin 16) (h : j ≠ j') : Disjoint (chunkR j).set (chunkR j').set :=
  Rect.unit_disjoint 1 (by
    show 128 * j.val + 128 ≤ 128 * j'.val ∨ 128 * j'.val + 128 ≤ 128 * j.val
    have := Fin.val_ne_of_ne h
    omega)

theorem chunkR_cover : (Finset.univ : Finset (Fin 16)).biUnion (fun j => (chunkR j).set) = Finset.univ := by
  ext i
  simp only [Finset.mem_biUnion, Finset.mem_univ, true_and, iff_true]
  have h1 : (i 1).val < 2048 := (i 1).isLt
  have h0 : (i 0).val < 512 := (i 0).isLt
  refine ⟨⟨(i 1).val / 128, by omega⟩, Rect.mem_set_unit.mpr fun a => ?_⟩
  match a with
  | ⟨0, _⟩ => exact ⟨Nat.zero_le _, by show (i 0).val < 0 + 512; omega⟩
  | ⟨1, _⟩ =>
    exact ⟨by show 128 * ((i 1).val / 128) ≤ (i 1).val; omega, by show (i 1).val < 128 * ((i 1).val / 128) + 128; omega⟩

theorem psC_set (j : Fin 16) : (psC j).view.set = (chunkR j).set := View.set_slice_whole cc0_scratch2 (chunkR j)
theorem rxC_set (j : Fin 16) : (rxC j).view.set = (chunkR j).set := View.set_slice_whole cc0_scratch4 (chunkR j)
theorem ysC_set (j : Fin 16) : (ysC j).view.set = (chunkR j).set := View.set_slice_whole cc0_scratch5 (chunkR j)
theorem yrC_set (j : Fin 16) : (yrC j).view.set = (chunkR j).set := View.set_slice_whole cc0_scratch6 (chunkR j)

omit [FloatOps F] in
theorem ps_chunks (d : Dev nD) (f : Buf (Elt F) ((d : Thread nD τ).loc cc0_scratch2)) :
    (((d : Thread nD τ).loc cc0_scratch2) ↦{fullShare} f : sProp 𝕄) = bigSep Finset.univ fun j : Fin 16 => psPts d j f :=
  pointsTo_cover (ℓ := (d : Thread nD τ).loc cc0_scratch2) (fun j : Fin 16 => (psC j).view.set)
    (fun j j' h => by show Disjoint (psC j).view.set (psC j').view.set; rw [psC_set, psC_set]; exact chunkR_disjoint j j' h)
    (by rw [← chunkR_cover]; exact Finset.biUnion_congr rfl fun j _ => psC_set j) f

omit [FloatOps F] in
theorem rx_chunks (d : Dev nD) (f : Buf (Elt F) ((d : Thread nD τ).loc cc0_scratch4)) :
    (((d : Thread nD τ).loc cc0_scratch4) ↦{fullShare} f : sProp 𝕄) = bigSep Finset.univ fun j : Fin 16 => rxPts d j f :=
  pointsTo_cover (ℓ := (d : Thread nD τ).loc cc0_scratch4) (fun j : Fin 16 => (rxC j).view.set)
    (fun j j' h => by show Disjoint (rxC j).view.set (rxC j').view.set; rw [rxC_set, rxC_set]; exact chunkR_disjoint j j' h)
    (by rw [← chunkR_cover]; exact Finset.biUnion_congr rfl fun j _ => rxC_set j) f
omit [FloatOps F] in
theorem ys_chunks (d : Dev nD) (f : Buf (Elt F) ((d : Thread nD τ).loc cc0_scratch5)) :
    (((d : Thread nD τ).loc cc0_scratch5) ↦{fullShare} f : sProp 𝕄) = bigSep Finset.univ fun j : Fin 16 => ysPts d j f :=
  pointsTo_cover (ℓ := (d : Thread nD τ).loc cc0_scratch5) (fun j : Fin 16 => (ysC j).view.set)
    (fun j j' h => by show Disjoint (ysC j).view.set (ysC j').view.set; rw [ysC_set, ysC_set]; exact chunkR_disjoint j j' h)
    (by rw [← chunkR_cover]; exact Finset.biUnion_congr rfl fun j _ => ysC_set j) f
omit [FloatOps F] in
theorem yr_chunks (d : Dev nD) (f : Buf (Elt F) ((d : Thread nD τ).loc cc0_scratch6)) :
    (((d : Thread nD τ).loc cc0_scratch6) ↦{fullShare} f : sProp 𝕄) = bigSep Finset.univ fun j : Fin 16 => yrPts d j f :=
  pointsTo_cover (ℓ := (d : Thread nD τ).loc cc0_scratch6) (fun j : Fin 16 => (yrC j).view.set)
    (fun j j' h => by show Disjoint (yrC j).view.set (yrC j').view.set; rw [yrC_set, yrC_set]; exact chunkR_disjoint j j' h)
    (by rw [← chunkR_cover]; exact Finset.biUnion_congr rfl fun j _ => yrC_set j) f

omit [FloatOps F] in
theorem ps_split (d : Dev nD) (f : Buf (Elt F) ((d : Thread nD τ).loc cc0_scratch2)) :
    (((d : Thread nD τ).loc cc0_scratch2) ↦{fullShare} f : sProp 𝕄) ⊢ bigSep Finset.univ fun j : Fin 16 => psPts d j f :=
  Entails.of_eq (ps_chunks d f)
omit [FloatOps F] in
theorem ps_join (d : Dev nD) (f : Buf (Elt F) ((d : Thread nD τ).loc cc0_scratch2)) :
    (bigSep Finset.univ fun j : Fin 16 => psPts d j f) ⊢ (((d : Thread nD τ).loc cc0_scratch2) ↦{fullShare} f : sProp 𝕄) :=
  Entails.of_eq (ps_chunks d f).symm
omit [FloatOps F] in
theorem rx_split (d : Dev nD) (f : Buf (Elt F) ((d : Thread nD τ).loc cc0_scratch4)) :
    (((d : Thread nD τ).loc cc0_scratch4) ↦{fullShare} f : sProp 𝕄) ⊢ bigSep Finset.univ fun j : Fin 16 => rxPts d j f :=
  Entails.of_eq (rx_chunks d f)
omit [FloatOps F] in
theorem rx_join (d : Dev nD) (f : Buf (Elt F) ((d : Thread nD τ).loc cc0_scratch4)) :
    (bigSep Finset.univ fun j : Fin 16 => rxPts d j f) ⊢ (((d : Thread nD τ).loc cc0_scratch4) ↦{fullShare} f : sProp 𝕄) :=
  Entails.of_eq (rx_chunks d f).symm
omit [FloatOps F] in
theorem ys_split (d : Dev nD) (f : Buf (Elt F) ((d : Thread nD τ).loc cc0_scratch5)) :
    (((d : Thread nD τ).loc cc0_scratch5) ↦{fullShare} f : sProp 𝕄) ⊢ bigSep Finset.univ fun j : Fin 16 => ysPts d j f :=
  Entails.of_eq (ys_chunks d f)
omit [FloatOps F] in
theorem ys_join (d : Dev nD) (f : Buf (Elt F) ((d : Thread nD τ).loc cc0_scratch5)) :
    (bigSep Finset.univ fun j : Fin 16 => ysPts d j f) ⊢ (((d : Thread nD τ).loc cc0_scratch5) ↦{fullShare} f : sProp 𝕄) :=
  Entails.of_eq (ys_chunks d f).symm
omit [FloatOps F] in
theorem yr_split (d : Dev nD) (f : Buf (Elt F) ((d : Thread nD τ).loc cc0_scratch6)) :
    (((d : Thread nD τ).loc cc0_scratch6) ↦{fullShare} f : sProp 𝕄) ⊢ bigSep Finset.univ fun j : Fin 16 => yrPts d j f :=
  Entails.of_eq (yr_chunks d f)
omit [FloatOps F] in
theorem yr_join (d : Dev nD) (f : Buf (Elt F) ((d : Thread nD τ).loc cc0_scratch6)) :
    (bigSep Finset.univ fun j : Fin 16 => yrPts d j f) ⊢ (((d : Thread nD τ).loc cc0_scratch6) ↦{fullShare} f : sProp 𝕄) :=
  Entails.of_eq (yr_chunks d f).symm

theorem ps_load_set (b : Fin 4) : psM.view.setOn (blockR b).toLoadRect.set ⊆ (psM.access (blockR b)).setOn Finset.univ :=
  Finset.subset_of_eq (View.set_slice psM.view (blockR b)).symm

end Cert.KernelIdeal.Sched

end
-- ==== Proof.KernelIdealH.RegionsDy.lean ====
import proofs.«901045_g7700000000001046_dist_rsdw_v7x_xy2x2_x_m1024_d1024_f4096_f32_1_alg».proof.Proof.KernelIdealH.Regions

noncomputable section

namespace Cert.KernelIdeal.Sched

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev dyR (b : Fin 4) : Rect S1024x2048 := Rect.unit (s := S1024x2048) ![0, 512 * b.val] S1024x512.size (dyblk_inb b)

theorem dyR_disjoint (b b' : Fin 4) (h : b ≠ b') : Disjoint (dyR b).set (dyR b').set :=
  Rect.unit_disjoint 1 (by
    show 512 * b.val + 512 ≤ 512 * b'.val ∨ 512 * b'.val + 512 ≤ 512 * b.val
    have := Fin.val_ne_of_ne h
    omega)

theorem dyR_cover : (Finset.univ : Finset (Fin 4)).biUnion (fun b => (dyR b).set) = Finset.univ := by
  ext i
  simp only [Finset.mem_biUnion, Finset.mem_univ, true_and, iff_true]
  have h1 : (i 1).val < 2048 := (i 1).isLt
  have h0 : (i 0).val < 1024 := (i 0).isLt
  refine ⟨⟨(i 1).val / 512, by omega⟩, Rect.mem_set_unit.mpr fun a => ?_⟩
  match a with
  | ⟨0, _⟩ => exact ⟨Nat.zero_le _, by show (i 0).val < 0 + 1024; omega⟩
  | ⟨1, _⟩ =>
    exact ⟨by show 512 * ((i 1).val / 512) ≤ (i 1).val; omega, by show (i 1).val < 512 * ((i 1).val / 512) + 512; omega⟩

theorem dyvC_set (b : Fin 4) : (dyvC b).view.set = (dyR b).set := View.set_slice_whole cc0_scratch1 (dyR b)

omit [FloatOps F] in
theorem dyv_blocks (c : Dev nD) (f : Buf (Elt F) ((c : Thread nD τ).loc cc0_scratch1)) :
    (((c : Thread nD τ).loc cc0_scratch1) ↦{fullShare} f : sProp 𝕄)
      = bigSep Finset.univ fun b : Fin 4 => ((dyvC b).view.loc (c : Thread nD τ) ↦[(dyvC b).view.set]{fullShare} f) :=
  pointsTo_cover (ℓ := (c : Thread nD τ).loc cc0_scratch1) (fun b : Fin 4 => (dyvC b).view.set)
    (fun b b' h => by show Disjoint (dyvC b).view.set (dyvC b').view.set; rw [dyvC_set, dyvC_set]; exact dyR_disjoint b b' h)
    (by rw [← dyR_cover]; exact Finset.biUnion_congr rfl fun b _ => dyvC_set b) f

omit [FloatOps F] in
theorem dyv_split (c : Dev nD) (f : Buf (Elt F) ((c : Thread nD τ).loc cc0_scratch1)) :
    (((c : Thread nD τ).loc cc0_scratch1) ↦{fullShare} f : sProp 𝕄)
      ⊢ bigSep Finset.univ fun b : Fin 4 => ((dyvC b).view.loc (c : Thread nD τ) ↦[(dyvC b).view.set]{fullShare} f) :=
  Entails.of_eq (dyv_blocks c f)
omit [FloatOps F] in
theorem dyv_join (c : Dev nD) (f : Buf (Elt F) ((c : Thread nD τ).loc cc0_scratch1)) :
    (bigSep Finset.univ fun b : Fin 4 => ((dyvC b).view.loc (c : Thread nD τ) ↦[(dyvC b).view.set]{fullShare} f))
      ⊢ (((c : Thread nD τ).loc cc0_scratch1) ↦{fullShare} f : sProp 𝕄) :=
  Entails.of_eq (dyv_blocks c f).symm

abbrev srcR (c : Dev nD) (b : Fin 4) : Rect S1024x4096 :=
  Rect.unit (s := S1024x4096) (k0_off1 c (BitVec.ofNat 32 (512 * b.val))) S1024x512.size (k0_off1_inb c b)

theorem dySrc_set (c : Dev nD) (b : Fin 4) : (dySrc c b).view.set = (srcR c b).set := View.set_slice_whole main_arg1 (srcR c b)

theorem srcR_disjoint (c : Dev nD) (b b' : Fin 4) (h : b ≠ b') : Disjoint (srcR c b).set (srcR c b').set :=
  Rect.unit_disjoint 1 (by
    rw [k0_off1_eq c b, k0_off1_eq c b']
    show 2048 * (c.val % 2) + 512 * b.val + 512 ≤ 2048 * (c.val % 2) + 512 * b'.val
      ∨ 2048 * (c.val % 2) + 512 * b'.val + 512 ≤ 2048 * (c.val % 2) + 512 * b.val
    have := Fin.val_ne_of_ne h
    omega)

omit [FloatOps F] in
theorem pointsTo_carve {T : Type} [Fintype T] [DecidableEq T] {ℓ : Loc nD τ sig} (K : T → Finset (Idx ℓ))
    (hd : ∀ t t', t ≠ t' → Disjoint (K t) (K t')) (f : Buf (Elt F) ℓ) :
    (ℓ ↦{fullShare} f : sProp 𝕄)
      = iprop((bigSep Finset.univ fun t : T => (ℓ ↦[K t]{fullShare} f))
          ∗ (ℓ ↦[Finset.univ \ (Finset.univ : Finset T).biUnion K]{fullShare} f)) := by
  have h : (ℓ ↦[(Finset.univ : Finset T).biUnion K]{fullShare} f : sProp 𝕄)
      = bigSep Finset.univ fun t : T => (ℓ ↦[K t]{fullShare} f) :=
    pointsTo_biUnion Finset.univ K fun t _ t' _ hne => hd t t' hne
  have hs : (ℓ ↦[Finset.univ]{fullShare} f : sProp 𝕄)
      ⊣⊢ iprop((ℓ ↦[(Finset.univ : Finset T).biUnion K]{fullShare} f)
          ∗ (ℓ ↦[Finset.univ \ (Finset.univ : Finset T).biUnion K]{fullShare} f)) :=
    pointsTo_split_subset (Finset.subset_univ _)
  rw [h] at hs
  exact equiv_iff.mp ⟨hs.1, hs.2⟩

omit [FloatOps F] in
theorem argD_blocks (c : Dev nD) (f : Buf (Elt F) ((c : Thread nD τ).loc main_arg1)) :
    (((c : Thread nD τ).loc main_arg1) ↦{fullShare} f : sProp 𝕄)
      = iprop((bigSep Finset.univ fun b : Fin 4 => ((dySrc c b).view.loc (c : Thread nD τ) ↦[(dySrc c b).view.set]{fullShare} f))
          ∗ (((c : Thread nD τ).loc main_arg1) ↦[Finset.univ \ (Finset.univ.biUnion fun b : Fin 4 => (dySrc c b).view.set)]{fullShare} f)) :=
  pointsTo_carve (ℓ := (c : Thread nD τ).loc main_arg1) (fun b : Fin 4 => (dySrc c b).view.set)
    (fun b b' h => by show Disjoint (dySrc c b).view.set (dySrc c b').view.set; rw [dySrc_set, dySrc_set]; exact srcR_disjoint c b b' h) f

omit [FloatOps F] in
theorem argD_split (c : Dev nD) (f : Buf (Elt F) ((c : Thread nD τ).loc main_arg1)) :
    (((c : Thread nD τ).loc main_arg1) ↦{fullShare} f : sProp 𝕄)
      ⊢ iprop((bigSep Finset.univ fun b : Fin 4 => ((dySrc c b).view.loc (c : Thread nD τ) ↦[(dySrc c b).view.set]{fullShare} f))
          ∗ (((c : Thread nD τ).loc main_arg1) ↦[Finset.univ \ (Finset.univ.biUnion fun b : Fin 4 => (dySrc c b).view.set)]{fullShare} f)) :=
  Entails.of_eq (argD_blocks c f)
omit [FloatOps F] in
theorem argD_join (c : Dev nD) (f : Buf (Elt F) ((c : Thread nD τ).loc main_arg1)) :
    iprop((bigSep Finset.univ fun b : Fin 4 => ((dySrc c b).view.loc (c : Thread nD τ) ↦[(dySrc c b).view.set]{fullShare} f))
          ∗ (((c : Thread nD τ).loc main_arg1) ↦[Finset.univ \ (Finset.univ.biUnion fun b : Fin 4 => (dySrc c b).view.set)]{fullShare} f))
      ⊢ (((c : Thread nD τ).loc main_arg1) ↦{fullShare} f : sProp 𝕄) :=
  Entails.of_eq (argD_blocks c f).symm

omit [FloatOps F] in
theorem whole_view (d : Dev nD) (ref : Ref sig .tc) (f : Buf (Elt F) ((d : Thread nD τ).loc ref)) :
    (((d : Thread nD τ).loc ref) ↦{fullShare} f : sProp 𝕄)
      = ((Memref.whole ref).view.loc (d : Thread nD τ) ↦[(Memref.whole ref).view.set]{fullShare} f) := by
  show _ = (((d : Thread nD τ).loc ref) ↦[(View.whole ref).set]{fullShare} f : sProp 𝕄)
  rw [View.set_whole]

end Cert.KernelIdeal.Sched

end
-- ==== Proof.KernelIdealH.RegionsStore.lean ====
import proofs.«901045_g7700000000001046_dist_rsdw_v7x_xy2x2_x_m1024_d1024_f4096_f32_1_alg».proof.Proof.KernelIdealH.Regions

noncomputable section

namespace Cert.KernelIdeal.Sched

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem mem_chunkR (j : Fin 16) (i : S512x2048.Idx) :
    i ∈ (chunkR j).set ↔ 128 * j.val ≤ (i 1).val ∧ (i 1).val < 128 * j.val + 128 := by
  rw [Rect.mem_set_unit]
  constructor
  · intro h; exact h 1
  · intro h a
    have h0 : (i 0).val < 512 := (i 0).isLt
    match a with
    | ⟨0, _⟩ => exact ⟨Nat.zero_le _, by show (i 0).val < 0 + 512; omega⟩
    | ⟨1, _⟩ => exact h

theorem mem_blockR (b : Fin 4) (i : S512x2048.Idx) :
    i ∈ (blockR b).set ↔ 512 * b.val ≤ (i 1).val ∧ (i 1).val < 512 * b.val + 512 := by
  rw [Rect.mem_set_unit]
  constructor
  · intro h; exact h 1
  · intro h a
    have h0 : (i 0).val < 512 := (i 0).isLt
    match a with
    | ⟨0, _⟩ => exact ⟨Nat.zero_le _, by show (i 0).val < 0 + 512; omega⟩
    | ⟨1, _⟩ => exact h

abbrev q0 (b : Fin 4) : Fin 16 := ⟨4 * b.val, by have := b.isLt; omega⟩
abbrev q1 (b : Fin 4) : Fin 16 := ⟨4 * b.val + 1, by have := b.isLt; omega⟩
abbrev q2 (b : Fin 4) : Fin 16 := ⟨4 * b.val + 2, by have := b.isLt; omega⟩
abbrev q3 (b : Fin 4) : Fin 16 := ⟨4 * b.val + 3, by have := b.isLt; omega⟩

theorem blockR_chunks (b : Fin 4) :
    (blockR b).set = (chunkR (q0 b)).set ∪ ((chunkR (q1 b)).set ∪ ((chunkR (q2 b)).set ∪ (chunkR (q3 b)).set)) := by
  ext i
  have e0 : (q0 b).val = 4 * b.val := rfl
  have e1 : (q1 b).val = 4 * b.val + 1 := rfl
  have e2 : (q2 b).val = 4 * b.val + 2 := rfl
  have e3 : (q3 b).val = 4 * b.val + 3 := rfl
  simp only [Finset.mem_union, mem_chunkR, mem_blockR]
  omega

theorem ps_block_set (b : Fin 4) :
    (psM.access (blockR b)).setOn Finset.univ
      = (psC (q0 b)).view.set ∪ ((psC (q1 b)).view.set ∪ ((psC (q2 b)).view.set ∪ (psC (q3 b)).view.set)) := by
  rw [psC_set, psC_set, psC_set, psC_set, ← blockR_chunks b]
  exact View.set_slice_whole cc0_scratch2 (blockR b)

theorem q_ne (b : Fin 4) : q0 b ≠ q1 b ∧ q0 b ≠ q2 b ∧ q0 b ≠ q3 b ∧ q1 b ≠ q2 b ∧ q1 b ≠ q3 b ∧ q2 b ≠ q3 b := by
  refine ⟨?_, ?_, ?_, ?_, ?_, ?_⟩ <;> intro h <;> have := congrArg Fin.val h <;> simp only [q0, q1, q2, q3] at this <;> omega

theorem psC_disjoint (j j' : Fin 16) (h : j ≠ j') : Disjoint (psC j).view.set (psC j').view.set := by
  rw [psC_set, psC_set]; exact chunkR_disjoint j j' h

omit [FloatOps F] in
theorem pointsTo_union_eq {ℓ : Loc nD τ sig} {I J : Finset (Idx ℓ)} (h : Disjoint I J) (f : Buf (Elt F) ℓ) :
    (ℓ ↦[I ∪ J]{fullShare} f : sProp 𝕄) = iprop((ℓ ↦[I]{fullShare} f) ∗ ℓ ↦[J]{fullShare} f) :=
  have hu : (ℓ ↦[I ∪ J]{fullShare} f : sProp 𝕄) ⊣⊢ iprop((ℓ ↦[I]{fullShare} f) ∗ ℓ ↦[J]{fullShare} f) := pointsTo_union h
  equiv_iff.mp ⟨hu.1, hu.2⟩

omit [FloatOps F] in
theorem ps_block_eq (c : Dev nD) (b : Fin 4) (f : Buf (Elt F) (psM.view.loc (c : Thread nD τ))) :
    ((psM.access (blockR b)).loc (c : Thread nD τ) ↦[(psM.access (blockR b)).setOn Finset.univ]{fullShare} f : sProp 𝕄)
      = iprop(psPts c (q0 b) f ∗ psPts c (q1 b) f ∗ psPts c (q2 b) f ∗ psPts c (q3 b) f) := by
  obtain ⟨n01, n02, n03, n12, n13, n23⟩ := q_ne b
  rw [ps_block_set,
    pointsTo_union_eq (Finset.disjoint_union_right.mpr ⟨psC_disjoint _ _ n01,
      Finset.disjoint_union_right.mpr ⟨psC_disjoint _ _ n02, psC_disjoint _ _ n03⟩⟩),
    pointsTo_union_eq (Finset.disjoint_union_right.mpr ⟨psC_disjoint _ _ n12, psC_disjoint _ _ n13⟩),
    pointsTo_union_eq (psC_disjoint _ _ n23)]
  rfl

omit [FloatOps F] in
theorem ps_block_join (c : Dev nD) (b : Fin 4) (f : Buf (Elt F) (psM.view.loc (c : Thread nD τ))) :
    iprop(psPts c (q0 b) f ∗ psPts c (q1 b) f ∗ psPts c (q2 b) f ∗ psPts c (q3 b) f)
      ⊢ ((psM.access (blockR b)).loc (c : Thread nD τ) ↦[(psM.access (blockR b)).setOn Finset.univ]{fullShare} f : sProp 𝕄) :=
  Entails.of_eq (ps_block_eq c b f).symm

theorem ps_block_stored (c : Dev nD) (b : Fin 4) (f : Buf (Elt F) (psM.view.loc (c : Thread nD τ))) :
    ((psM.access (blockR b)).loc (c : Thread nD τ) ↦[(psM.access (blockR b)).setOn Finset.univ]{fullShare}
        ((psM.access (blockR b)).write (Elt F) f (Vals.ps m c b) Finset.univ) : sProp 𝕄)
      ⊢ iprop(psPts c (q0 b) (Vals.PS m c) ∗ psPts c (q1 b) (Vals.PS m c) ∗ psPts c (q2 b) (Vals.PS m c) ∗ psPts c (q3 b) (Vals.PS m c)) := by
  have hc : ((psM.access (blockR b)).loc (c : Thread nD τ) ↦[(psM.access (blockR b)).setOn Finset.univ]{fullShare}
        ((psM.access (blockR b)).write (Elt F) f (Vals.ps m c b) Finset.univ) : sProp 𝕄)
      = ((psM.access (blockR b)).loc (c : Thread nD τ) ↦[(psM.access (blockR b)).setOn Finset.univ]{fullShare} (Vals.PS m c)) :=
    pointsTo_congr fun i hi => by
      rw [ps_block_set] at hi
      rcases Finset.mem_union.mp hi with h | hi
      · exact ps_store_in m c b (q0 b) f i h (by show 4 * b.val / 4 = b.val; omega)
      rcases Finset.mem_union.mp hi with h | hi
      · exact ps_store_in m c b (q1 b) f i h (by show (4 * b.val + 1) / 4 = b.val; omega)
      rcases Finset.mem_union.mp hi with h | h
      · exact ps_store_in m c b (q2 b) f i h (by show (4 * b.val + 2) / 4 = b.val; omega)
      · exact ps_store_in m c b (q3 b) f i h (by show (4 * b.val + 3) / 4 = b.val; omega)
  rw [hc]
  exact Entails.of_eq (ps_block_eq c b (Vals.PS m c))

end Cert.KernelIdeal.Sched

end
-- ==== Proof.KernelIdealH.RegionsEnd.lean ====
import proofs.«901045_g7700000000001046_dist_rsdw_v7x_xy2x2_x_m1024_d1024_f4096_f32_1_alg».proof.Proof.KernelIdealH.RegionsPos

noncomputable section

namespace Cert.KernelIdeal.Sched

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

def cells69 : List (Fin 70) :=
  [1] ++ ((List.finRange 4).map (kat 2 4 (by decide)) ++ ((List.finRange 16).map (kat 6 16 (by decide))
    ++ ((List.finRange 16).map (kat 22 16 (by decide)) ++ ((List.finRange 16).map (kat 38 16 (by decide))
    ++ (List.finRange 16).map (kat 54 16 (by decide))))))

theorem cells69_eq : ((Finset.univ : Finset (Fin 70)).filter fun k => k.val ≠ 0) = cells69.toFinset := by decide
theorem cells69_nodup : cells69.Nodup := by decide

omit [FloatOps F] in
theorem rest_groups (c : Dev nD) (Ψ : GSem nD τ sig → sProp 𝕄) :
    (bigSep ((Finset.univ : Finset (Fin 70)).filter fun k => k.val ≠ 0) fun k => Ψ (kcell (c, k)))
      = iprop(Ψ (xvCell c)
          ∗ (bigSep Finset.univ fun b : Fin 4 => Ψ (dyCell c b))
          ∗ (bigSep Finset.univ fun j : Fin 16 => Ψ (sxCell c j))
          ∗ (bigSep Finset.univ fun j : Fin 16 => Ψ (rxCell c j))
          ∗ (bigSep Finset.univ fun j : Fin 16 => Ψ (syCell c j))
          ∗ (bigSep Finset.univ fun j : Fin 16 => Ψ (ryCell c j))) := by
  rw [bigSep_eq_bigSepL_of_eq cells69 cells69_eq cells69_nodup]
  unfold cells69
  rw [bigSepL_append, bigSepL_append, bigSepL_append, bigSepL_append, bigSepL_append,
    bigSepL_map, bigSepL_map, bigSepL_map, bigSepL_map, bigSepL_map,
    bigSepL_finRange, bigSepL_finRange, bigSepL_finRange, bigSepL_finRange, bigSepL_finRange,
    bigSepL_singleton]
  simp only [kcell_dy, kcell_sx, kcell_rx, kcell_sy, kcell_ry]
  rfl

omit [FloatOps F] in
theorem semVal_groups (c : Dev nD) :
    iprop(semVal (xvCell c) 0
        ∗ (bigSep Finset.univ fun b : Fin 4 => semVal (dyCell c b) 0)
        ∗ (bigSep Finset.univ fun j : Fin 16 => semVal (sxCell c j) 0)
        ∗ (bigSep Finset.univ fun j : Fin 16 => semVal (rxCell c j) 0)
        ∗ (bigSep Finset.univ fun j : Fin 16 => semVal (syCell c j) 0)
        ∗ (bigSep Finset.univ fun j : Fin 16 => semVal (ryCell c j) 0))
      ⊢ (bigSep ((Finset.univ : Finset (Fin 70)).filter fun k => k.val ≠ 0) fun k => (semVal (kcell (c, k)) 0 : sProp 𝕄)) :=
  Entails.of_eq (rest_groups c fun g => semVal g 0).symm

end Cert.KernelIdeal.Sched

end
-- ==== Proof.KernelIdealH.BodyEnd.lean ====
import proofs.«901045_g7700000000001046_dist_rsdw_v7x_xy2x2_x_m1024_d1024_f4096_f32_1_alg».proof.Proof.KernelIdealH.Rules
import proofs.«901045_g7700000000001046_dist_rsdw_v7x_xy2x2_x_m1024_d1024_f4096_f32_1_alg».proof.Proof.KernelIdealH.RegionsEnd
import proofs.«901045_g7700000000001046_dist_rsdw_v7x_xy2x2_x_m1024_d1024_f4096_f32_1_alg».proof.Proof.KernelIdealH.RegionsDy

noncomputable section

namespace Cert.KernelIdeal.Sched

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem close_fam {T : Type} [Fintype T] [DecidableEq T] (K : Dev nD × Fin 70 → ℕ) (c : Dev nD) (s : T → DmaSem sig)
    (hs : ∀ t, (s t).val ≠ 0) :
    iprop(records m K ∗ bigSep Finset.univ fun t : T => atPos ER ((c : Thread nD τ), SemLoc.dma (s t)) 1 ∅ 0)
      ⊢ (|={Set.univ}=> bigSep Finset.univ fun t : T => semVal ((c : Thread nD τ), SemLoc.dma (s t)) 0 : sProp 𝕄) := by
  have h1 : iprop(records m K ∗ bigSep Finset.univ fun t : T => atPos ER ((c : Thread nD τ), SemLoc.dma (s t)) 1 ∅ 0)
      ⊢ (bigSep Finset.univ fun t : T => iprop(records m K ∗ atPos ER ((c : Thread nD τ), SemLoc.dma (s t)) 1 ∅ 0) : sProp 𝕄) := by
    rw [bigSep_sep']
    iintro ⟨#HR, H⟩
    isplitr
    · iapply (bigSep_intro_persistent (S := (Finset.univ : Finset T)) (R := records m K) (Φ := fun _ => records m K) fun _ _ => Entails.rfl)
      iexact HR
    · iexact H
  exact h1.trans ((bigSep_mono fun t _ => close_dma m K c (s t) (hs t)).trans (bigSep_fupd _ _))

theorem close_xv (K : Dev nD × Fin 70 → ℕ) (c : Dev nD) :
    iprop(records m K ∗ atPos ER (xvCell c) 1 ∅ 0) ⊢ (|={Set.univ}=> semVal (xvCell c) 0 : sProp 𝕄) :=
  close_dma m K c xvS (by decide)

theorem closes (K : Dev nD × Fin 70 → ℕ) (c : Dev nD) :
    iprop(records m K
      ∗ atPos ER (xvCell c) 1 ∅ 0 ∗ (bigSep Finset.univ fun b : Fin 4 => atPos ER (dyCell c b) 1 ∅ 0)
      ∗ (bigSep Finset.univ fun j : Fin 16 => atPos ER (sxCell c j) 1 ∅ 0) ∗ (bigSep Finset.univ fun j : Fin 16 => atPos ER (rxCell c j) 1 ∅ 0)
      ∗ (bigSep Finset.univ fun j : Fin 16 => atPos ER (syCell c j) 1 ∅ 0) ∗ (bigSep Finset.univ fun j : Fin 16 => atPos ER (ryCell c j) 1 ∅ 0))
      ⊢ (|={Set.univ}=> bigSep ((Finset.univ : Finset (Fin 70)).filter fun k => k.val ≠ 0) fun k => semVal (kcell (c, k)) 0 : sProp 𝕄) := by
  iintro ⟨#HR, Hxv, Hdy, Hsx, Hrx, Hsy, Hry⟩
  imod (close_xv m K c) $$ [$HR $Hxv] with Sxv
  imod (close_fam m K c dyS (fun b => by show 2 + b.val ≠ 0; omega)) $$ [$HR $Hdy] with Sdy
  imod (close_fam m K c sxS (fun j => by show 6 + j.val ≠ 0; omega)) $$ [$HR $Hsx] with Ssx
  imod (close_fam m K c rxS (fun j => by show 22 + j.val ≠ 0; omega)) $$ [$HR $Hrx] with Srx
  imod (close_fam m K c syS (fun j => by show 38 + j.val ≠ 0; omega)) $$ [$HR $Hsy] with Ssy
  imod (close_fam m K c ryS (fun j => by show 54 + j.val ≠ 0; omega)) $$ [$HR $Hry] with Sry
  imodintro
  iapply (semVal_groups c)
  isplitl [Sxv]; · iexact Sxv
  isplitl [Sdy]; · iexact Sdy
  isplitl [Ssx]; · iexact Ssx
  isplitl [Srx]; · iexact Srx
  isplitl [Ssy]; · iexact Ssy
  iexact Sry

theorem body_end (K : Dev nD × Fin 70 → ℕ) (c : Dev nD) :
    iprop(records m K
      ∗ atPos ER (xvCell c) 1 ∅ 0 ∗ (bigSep Finset.univ fun b : Fin 4 => atPos ER (dyCell c b) 1 ∅ 0)
      ∗ (bigSep Finset.univ fun j : Fin 16 => atPos ER (sxCell c j) 1 ∅ 0) ∗ (bigSep Finset.univ fun j : Fin 16 => atPos ER (rxCell c j) 1 ∅ 0)
      ∗ (bigSep Finset.univ fun j : Fin 16 => atPos ER (syCell c j) 1 ∅ 0) ∗ (bigSep Finset.univ fun j : Fin 16 => atPos ER (ryCell c j) 1 ∅ 0)
      ∗ (xvM.view.loc (c : Thread nD τ) ↦[xvM.view.set]{fullShare} Vals.X m c) ∗ (argXM.view.loc (c : Thread nD τ) ↦[argXM.view.set]{fullShare} Vals.X m c)
      ∗ (bigSep Finset.univ fun b : Fin 4 => ((dyvC b).view.loc (c : Thread nD τ) ↦[(dyvC b).view.set]{fullShare} Vals.DYV m c))
      ∗ (bigSep Finset.univ fun b : Fin 4 => ((dySrc c b).view.loc (c : Thread nD τ) ↦[(dySrc c b).view.set]{fullShare} Vals.D m c))
      ∗ ((c : Thread nD τ).loc main_arg1 ↦[Finset.univ \ (Finset.univ.biUnion fun b : Fin 4 => (dySrc c b).view.set)]{fullShare} Vals.D m c)
      ∗ (bigSep Finset.univ fun j : Fin 16 => psPts c j (Vals.PS m c)) ∗ ((c : Thread nD τ).loc cc0_scratch3 ↦{fullShare} Vals.PM m c)
      ∗ (bigSep Finset.univ fun j : Fin 16 => rxPts c j (Vals.PS m (xn c))) ∗ (bigSep Finset.univ fun j : Fin 16 => ysPts c j (Vals.YS m c))
      ∗ (bigSep Finset.univ fun j : Fin 16 => yrPts c j (Vals.YS m (yn c))))
    ⊢ (|={Set.univ}=> Φ₁ m c : sProp 𝕄) := by
  iintro ⟨#HR, Hxv, Hdy, Hsx, Hrx, Hsy, Hry, HxvM, HargX, Hdyv, HdySrc, HDrest, Hps, Hpm, Hrxb, Hys, Hyr⟩
  imod (closes m K c) $$ [$HR $Hxv $Hdy $Hsx $Hrx $Hsy $Hry] with Hsem
  imodintro
  unfold Φ₁ argPts scratches scr
  isplitl [HargX HdySrc HDrest]
  · isplitl [HargX]
    · iapply (Entails.of_eq (whole_view c main_arg0 (Vals.X m c)).symm); iexact HargX
    · iapply (argD_join c (Vals.D m c))
      isplitl [HdySrc]; · iexact HdySrc
      iexact HDrest
  isplitl [HxvM Hdyv Hps Hpm Hrxb Hys Hyr]
  · isplitl [HxvM]
    · iexists (Vals.X m c); iapply (Entails.of_eq (whole_view c cc0_scratch0 (Vals.X m c)).symm); iexact HxvM
    isplitl [Hdyv]
    · iexists (Vals.DYV m c); iapply (dyv_join c (Vals.DYV m c)); iexact Hdyv
    isplitl [Hps]
    · iexists (Vals.PS m c); iapply (ps_join c (Vals.PS m c)); iexact Hps
    isplitl [Hpm]
    · iexists (Vals.PM m c); iexact Hpm
    isplitl [Hrxb]
    · iexists (Vals.PS m (xn c)); iapply (rx_join c (Vals.PS m (xn c))); iexact Hrxb
    isplitl [Hys]
    · iexists (Vals.YS m c); iapply (ys_join c (Vals.YS m c)); iexact Hys
    iexists (Vals.YS m (yn c)); iapply (yr_join c (Vals.YS m (yn c))); iexact Hyr
  · iexact Hsem

end Cert.KernelIdeal.Sched

end
-- ==== Proof.KernelIdealH.BodyEndOpen.lean ====
import proofs.«901045_g7700000000001046_dist_rsdw_v7x_xy2x2_x_m1024_d1024_f4096_f32_1_alg».proof.Proof.KernelIdealH.BodyEnd
set_option maxRecDepth 16384

noncomputable section

namespace Cert.KernelIdeal.Sched

open Cert.KernelIdeal Cert.KernelIdeal.Gen Cert.KernelIdeal.Mesh
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem body_end_open (K : Dev nD × Fin 70 → ℕ) (c : Dev nD) :
    iprop(records m K
      ∗ atPos ER (xvCell c) 1 ∅ 0 ∗ (atPos ER (dyCell c 0) 1 ∅ 0 ∗ atPos ER (dyCell c 1) 1 ∅ 0 ∗ atPos ER (dyCell c 2) 1 ∅ 0 ∗ atPos ER (dyCell c 3) 1 ∅ 0)
      ∗ (atPos ER (sxCell c 0) 1 ∅ 0 ∗ atPos ER (sxCell c 1) 1 ∅ 0 ∗ atPos ER (sxCell c 2) 1 ∅ 0 ∗ atPos ER (sxCell c 3) 1 ∅ 0 ∗ atPos ER (sxCell c 4) 1 ∅ 0 ∗ atPos ER (sxCell c 5) 1 ∅ 0 ∗ atPos ER (sxCell c 6) 1 ∅ 0 ∗ atPos ER (sxCell c 7) 1 ∅ 0 ∗ atPos ER (sxCell c 8) 1 ∅ 0 ∗ atPos ER (sxCell c 9) 1 ∅ 0 ∗ atPos ER (sxCell c 10) 1 ∅ 0 ∗ atPos ER (sxCell c 11) 1 ∅ 0 ∗ atPos ER (sxCell c 12) 1 ∅ 0 ∗ atPos ER (sxCell c 13) 1 ∅ 0 ∗ atPos ER (sxCell c 14) 1 ∅ 0 ∗ atPos ER (sxCell c 15) 1 ∅ 0)
      ∗ (atPos ER (rxCell c 0) 1 ∅ 0 ∗ atPos ER (rxCell c 1) 1 ∅ 0 ∗ atPos ER (rxCell c 2) 1 ∅ 0 ∗ atPos ER (rxCell c 3) 1 ∅ 0 ∗ atPos ER (rxCell c 4) 1 ∅ 0 ∗ atPos ER (rxCell c 5) 1 ∅ 0 ∗ atPos ER (rxCell c 6) 1 ∅ 0 ∗ atPos ER (rxCell c 7) 1 ∅ 0 ∗ atPos ER (rxCell c 8) 1 ∅ 0 ∗ atPos ER (rxCell c 9) 1 ∅ 0 ∗ atPos ER (rxCell c 10) 1 ∅ 0 ∗ atPos ER (rxCell c 11) 1 ∅ 0 ∗ atPos ER (rxCell c 12) 1 ∅ 0 ∗ atPos ER (rxCell c 13) 1 ∅ 0 ∗ atPos ER (rxCell c 14) 1 ∅ 0 ∗ atPos ER (rxCell c 15) 1 ∅ 0)
      ∗ (atPos ER (syCell c 0) 1 ∅ 0 ∗ atPos ER (syCell c 1) 1 ∅ 0 ∗ atPos ER (syCell c 2) 1 ∅ 0 ∗ atPos ER (syCell c 3) 1 ∅ 0 ∗ atPos ER (syCell c 4) 1 ∅ 0 ∗ atPos ER (syCell c 5) 1 ∅ 0 ∗ atPos ER (syCell c 6) 1 ∅ 0 ∗ atPos ER (syCell c 7) 1 ∅ 0 ∗ atPos ER (syCell c 8) 1 ∅ 0 ∗ atPos ER (syCell c 9) 1 ∅ 0 ∗ atPos ER (syCell c 10) 1 ∅ 0 ∗ atPos ER (syCell c 11) 1 ∅ 0 ∗ atPos ER (syCell c 12) 1 ∅ 0 ∗ atPos ER (syCell c 13) 1 ∅ 0 ∗ atPos ER (syCell c 14) 1 ∅ 0 ∗ atPos ER (syCell c 15) 1 ∅ 0)
      ∗ (atPos ER (ryCell c 0) 1 ∅ 0 ∗ atPos ER (ryCell c 1) 1 ∅ 0 ∗ atPos ER (ryCell c 2) 1 ∅ 0 ∗ atPos ER (ryCell c 3) 1 ∅ 0 ∗ atPos ER (ryCell c 4) 1 ∅ 0 ∗ atPos ER (ryCell c 5) 1 ∅ 0 ∗ atPos ER (ryCell c 6) 1 ∅ 0 ∗ atPos ER (ryCell c 7) 1 ∅ 0 ∗ atPos ER (ryCell c 8) 1 ∅ 0 ∗ atPos ER (ryCell c 9) 1 ∅ 0 ∗ atPos ER (ryCell c 10) 1 ∅ 0 ∗ atPos ER (ryCell c 11) 1 ∅ 0 ∗ atPos ER (ryCell c 12) 1 ∅ 0 ∗ atPos ER (ryCell c 13) 1 ∅ 0 ∗ atPos ER (ryCell c 14) 1 ∅ 0 ∗ atPos ER (ryCell c 15) 1 ∅ 0)
      ∗ (xvM.view.loc (c : Thread nD τ) ↦[xvM.view.set]{fullShare} Vals.X m c) ∗ (argXM.view.loc (c : Thread nD τ) ↦[argXM.view.set]{fullShare} Vals.X m c)
      ∗ (((dyvC 0).view.loc (c : Thread nD τ) ↦[(dyvC 0).view.set]{fullShare} Vals.DYV m c) ∗ ((dyvC 1).view.loc (c : Thread nD τ) ↦[(dyvC 1).view.set]{fullShare} Vals.DYV m c) ∗ ((dyvC 2).view.loc (c : Thread nD τ) ↦[(dyvC 2).view.set]{fullShare} Vals.DYV m c) ∗ ((dyvC 3).view.loc (c : Thread nD τ) ↦[(dyvC 3).view.set]{fullShare} Vals.DYV m c))
      ∗ (((dySrc c 0).view.loc (c : Thread nD τ) ↦[(dySrc c 0).view.set]{fullShare} Vals.D m c) ∗ ((dySrc c 1).view.loc (c : Thread nD τ) ↦[(dySrc c 1).view.set]{fullShare} Vals.D m c) ∗ ((dySrc c 2).view.loc (c : Thread nD τ) ↦[(dySrc c 2).view.set]{fullShare} Vals.D m c) ∗ ((dySrc c 3).view.loc (c : Thread nD τ) ↦[(dySrc c 3).view.set]{fullShare} Vals.D m c))
      ∗ ((c : Thread nD τ).loc main_arg1 ↦[Finset.univ \ (Finset.univ.biUnion fun b : Fin 4 => (dySrc c b).view.set)]{fullShare} Vals.D m c)
      ∗ (psPts c 0 (Vals.PS m c) ∗ psPts c 1 (Vals.PS m c) ∗ psPts c 2 (Vals.PS m c) ∗ psPts c 3 (Vals.PS m c) ∗ psPts c 4 (Vals.PS m c) ∗ psPts c 5 (Vals.PS m c) ∗ psPts c 6 (Vals.PS m c) ∗ psPts c 7 (Vals.PS m c) ∗ psPts c 8 (Vals.PS m c) ∗ psPts c 9 (Vals.PS m c) ∗ psPts c 10 (Vals.PS m c) ∗ psPts c 11 (Vals.PS m c) ∗ psPts c 12 (Vals.PS m c) ∗ psPts c 13 (Vals.PS m c) ∗ psPts c 14 (Vals.PS m c) ∗ psPts c 15 (Vals.PS m c)) ∗ ((c : Thread nD τ).loc cc0_scratch3 ↦{fullShare} Vals.PM m c)
      ∗ (rxPts c 0 (Vals.PS m (xn c)) ∗ rxPts c 1 (Vals.PS m (xn c)) ∗ rxPts c 2 (Vals.PS m (xn c)) ∗ rxPts c 3 (Vals.PS m (xn c)) ∗ rxPts c 4 (Vals.PS m (xn c)) ∗ rxPts c 5 (Vals.PS m (xn c)) ∗ rxPts c 6 (Vals.PS m (xn c)) ∗ rxPts c 7 (Vals.PS m (xn c)) ∗ rxPts c 8 (Vals.PS m (xn c)) ∗ rxPts c 9 (Vals.PS m (xn c)) ∗ rxPts c 10 (Vals.PS m (xn c)) ∗ rxPts c 11 (Vals.PS m (xn c)) ∗ rxPts c 12 (Vals.PS m (xn c)) ∗ rxPts c 13 (Vals.PS m (xn c)) ∗ rxPts c 14 (Vals.PS m (xn c)) ∗ rxPts c 15 (Vals.PS m (xn c))) ∗ (ysPts c 0 (Vals.YS m c) ∗ ysPts c 1 (Vals.YS m c) ∗ ysPts c 2 (Vals.YS m c) ∗ ysPts c 3 (Vals.YS m c) ∗ ysPts c 4 (Vals.YS m c) ∗ ysPts c 5 (Vals.YS m c) ∗ ysPts c 6 (Vals.YS m c) ∗ ysPts c 7 (Vals.YS m c) ∗ ysPts c 8 (Vals.YS m c) ∗ ysPts c 9 (Vals.YS m c) ∗ ysPts c 10 (Vals.YS m c) ∗ ysPts c 11 (Vals.YS m c) ∗ ysPts c 12 (Vals.YS m c) ∗ ysPts c 13 (Vals.YS m c) ∗ ysPts c 14 (Vals.YS m c) ∗ ysPts c 15 (Vals.YS m c))
      ∗ (yrPts c 0 (Vals.YS m (yn c)) ∗ yrPts c 1 (Vals.YS m (yn c)) ∗ yrPts c 2 (Vals.YS m (yn c)) ∗ yrPts c 3 (Vals.YS m (yn c)) ∗ yrPts c 4 (Vals.YS m (yn c)) ∗ yrPts c 5 (Vals.YS m (yn c)) ∗ yrPts c 6 (Vals.YS m (yn c)) ∗ yrPts c 7 (Vals.YS m (yn c)) ∗ yrPts c 8 (Vals.YS m (yn c)) ∗ yrPts c 9 (Vals.YS m (yn c)) ∗ yrPts c 10 (Vals.YS m (yn c)) ∗ yrPts c 11 (Vals.YS m (yn c)) ∗ yrPts c 12 (Vals.YS m (yn c)) ∗ yrPts c 13 (Vals.YS m (yn c)) ∗ yrPts c 14 (Vals.YS m (yn c)) ∗ yrPts c 15 (Vals.YS m (yn c))))
      ⊢ (|={Set.univ}=> Φ₁ m c : sProp 𝕄) := by
  have h := body_end m K c
  simp only [bigSep_fin4, bigSep_fin16] at h
  exact h

end Cert.KernelIdeal.Sched
end
-- ==== Proof.KernelIdealH.BodyPost.lean ====
import proofs.«901045_g7700000000001046_dist_rsdw_v7x_xy2x2_x_m1024_d1024_f4096_f32_1_alg».proof.Proof.KernelIdealH.Inv
import proofs.«901045_g7700000000001046_dist_rsdw_v7x_xy2x2_x_m1024_d1024_f4096_f32_1_alg».proof.Proof.KernelIdealH.ReadsOut
set_option maxRecDepth 16384

noncomputable section

namespace Cert.KernelIdeal.Sched

open Cert.KernelIdeal Cert.KernelIdeal.Gen Cert.KernelIdeal.Mesh
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem body_post (c : Dev nD) (W : Waits sig Unit) :
    iprop(Φ₁ m c ∗ owes (c : Thread nD τ) 0 W
        ∗ (outM.view.loc (c : Thread nD τ) ↦[outM.view.set]{fullShare} Vals.OUT m c))
      ⊢ bodyPost m ρ c := by
  unfold bodyPost Dat.owesAt Pipeline.owesWithin
  rw [show (dats m ρ 0 c).owed t₀.succ = 0 from rfl]
  iintro ⟨HΦ, HO, Hout⟩
  isplitl [HΦ]; · iexact HΦ
  isplitl [HO]
  · iexists W
    isplitr; · ipureintro; exact fun _ _ => Or.inl trivial
    iexact HO
  iexists (Vals.OUT m c)
  isplitr; · (ipureintro; rfl)
  rw [View.set_whole]
  iexact Hout

end Cert.KernelIdeal.Sched
end
-- ==== Proof.KernelIdealH.ReadsOut0.lean ====
import proofs.«901045_g7700000000001046_dist_rsdw_v7x_xy2x2_x_m1024_d1024_f4096_f32_1_alg».proof.Proof.KernelIdealH.ReadsDefs

noncomputable section

namespace Cert.KernelIdeal.Sched

open Cert.KernelIdeal Cert.KernelIdeal.Gen Cert.KernelIdeal.Mesh
open Idealize.ShloMosaic Idealize.ShloMosaic.TcCoe Idealize.ShloMosaic.ValueIdx Idealize.SL.Sem

variable {F : FTy → Type} [FloatOps F]
variable (m : (ℓ : Loc nD τ sig) → Buf (Elt F) ℓ)

theorem outSt_zero (c : Dev nD) (f0 : Buf (Elt F) (outM.view.loc (c : Thread nD τ))) : outSt m c f0 0 0 = f0 := by
  funext i
  unfold outSt
  have hA : ¬ (2048 * (c.val % 2) ≤ (i 1).val ∧ (i 1).val < 2048 * (c.val % 2) + 128 * 0) := fun h => by omega
  have hB : ¬ (2048 * (1 - c.val % 2) ≤ (i 1).val ∧ (i 1).val < 2048 * (1 - c.val % 2) + 128 * 0) := fun h => by omega
  rw [if_neg hA, if_neg hB]

theorem pmSt_zero (c : Dev nD) (f0 : Buf (Elt F) (pmM.view.loc (c : Thread nD τ))) : pmSt m c f0 0 = f0 := by
  funext i
  unfold pmSt
  have hA : ¬ ((i 1).val < 512 * 0) := fun h => by omega
  rw [if_neg hA]

end Cert.KernelIdeal.Sched

end
-- ==== Proof.KernelIdealH.RegionsStoreW.lean ====
import proofs.«901045_g7700000000001046_dist_rsdw_v7x_xy2x2_x_m1024_d1024_f4096_f32_1_alg».proof.Proof.KernelIdealH.RegionsStore
import proofs.«901045_g7700000000001046_dist_rsdw_v7x_xy2x2_x_m1024_d1024_f4096_f32_1_alg».proof.Proof.KernelIdealH.ReadsOut0

noncomputable section

namespace Cert.KernelIdeal.Sched

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem ps_block_stored_w (c : Dev nD) (b : Fin 4) (f : Buf (Elt F) (psM.view.loc (c : Thread nD τ))) (w : Vec F S512x512 .bf16) :
    iprop(((psM.access (blockR b)).loc (c : Thread nD τ) ↦[(psM.access (blockR b)).setOn Finset.univ]{fullShare}
        ((psM.access (blockR b)).write (Elt F) f w Finset.univ)) ∗ ⌜w = Vals.ps m c b⌝)
      ⊢ (iprop(psPts c (q0 b) (Vals.PS m c) ∗ psPts c (q1 b) (Vals.PS m c) ∗ psPts c (q2 b) (Vals.PS m c) ∗ psPts c (q3 b) (Vals.PS m c)) : sProp 𝕄) := by
  iintro ⟨H, %hw⟩
  subst hw
  iapply (ps_block_stored m c b f)
  iexact H

theorem load_Dy_p0 (c : Dev nD) :
    dyvM.view.readAt (Elt F) (Rect.unit (s := S1024x2048) ![0, 0] S1024x512.size inb_S1024x2048_S1024x512_0_0).toLoadRect (Vals.DYV m c)
      = Vals.Dy m c 0 := load_Dy m c 0
theorem load_Dy_p1 (c : Dev nD) :
    dyvM.view.readAt (Elt F) (Rect.unit (s := S1024x2048) ![0, 512] S1024x512.size inb_S1024x2048_S1024x512_0_512).toLoadRect (Vals.DYV m c)
      = Vals.Dy m c 1 := load_Dy m c 1
theorem load_Dy_p2 (c : Dev nD) :
    dyvM.view.readAt (Elt F) (Rect.unit (s := S1024x2048) ![0, 1024] S1024x512.size inb_S1024x2048_S1024x512_0_1024).toLoadRect (Vals.DYV m c)
      = Vals.Dy m c 2 := load_Dy m c 2
theorem load_Dy_p3 (c : Dev nD) :
    dyvM.view.readAt (Elt F) (Rect.unit (s := S1024x2048) ![0, 1536] S1024x512.size inb_S1024x2048_S1024x512_0_1536).toLoadRect (Vals.DYV m c)
      = Vals.Dy m c 3 := load_Dy m c 3

theorem pm_writes_full (c : Dev nD) (f0 : Buf (Elt F) (pmM.view.loc (c : Thread nD τ))) :
    pmM.view.writes (Elt F) f0 [⟨blockR 3, Vals.pm m c 3⟩, ⟨blockR 2, Vals.pm m c 2⟩, ⟨blockR 1, Vals.pm m c 1⟩, ⟨blockR 0, Vals.pm m c 0⟩]
      = Vals.PM m c := by
  have h0 : (pmM.access (blockR 0)).write (Elt F) f0 (Vals.pm m c 0) Finset.univ = pmSt m c f0 1 := by
    have h := pm_store m c 0 f0
    rw [show pmSt m c f0 (0 : Fin 4).val = f0 from pmSt_zero m c f0] at h
    exact h
  have h1 : (pmM.access (blockR 1)).write (Elt F) (pmSt m c f0 1) (Vals.pm m c 1) Finset.univ = pmSt m c f0 2 := pm_store m c 1 f0
  have h2 : (pmM.access (blockR 2)).write (Elt F) (pmSt m c f0 2) (Vals.pm m c 2) Finset.univ = pmSt m c f0 3 := pm_store m c 2 f0
  have h3 : (pmM.access (blockR 3)).write (Elt F) (pmSt m c f0 3) (Vals.pm m c 3) Finset.univ = pmSt m c f0 4 := pm_store m c 3 f0
  show (pmM.access (blockR 3)).write (Elt F) ((pmM.access (blockR 2)).write (Elt F) ((pmM.access (blockR 1)).write (Elt F)
    ((pmM.access (blockR 0)).write (Elt F) f0 (Vals.pm m c 0) Finset.univ) (Vals.pm m c 1) Finset.univ) (Vals.pm m c 2) Finset.univ)
    (Vals.pm m c 3) Finset.univ = Vals.PM m c
  rw [h0, h1, h2, h3, pmSt_full]

theorem pm_writes_eq (c : Dev nD) (f0 : Buf (Elt F) (pmM.view.loc (c : Thread nD τ))) :
    pmM.view.writes (Elt F) f0
      [⟨Rect.unit (s := S512x2048) ![0, 1536] S512x512.size inb_S512x2048_S512x512_0_1536,
          k0_pay11 (k0_pay2 (Vals.Xm m c))
            (dyvM.view.readAt (Elt F) (Rect.unit (s := S1024x2048) ![0, 1536] S1024x512.size inb_S1024x2048_S1024x512_0_1536).toLoadRect (Vals.DYV m c))⟩,
        ⟨Rect.unit (s := S512x2048) ![0, 1024] S512x512.size inb_S512x2048_S512x512_0_1024,
          k0_pay10 (k0_pay2 (Vals.Xm m c))
            (dyvM.view.readAt (Elt F) (Rect.unit (s := S1024x2048) ![0, 1024] S1024x512.size inb_S1024x2048_S1024x512_0_1024).toLoadRect (Vals.DYV m c))⟩,
        ⟨Rect.unit (s := S512x2048) ![0, 512] S512x512.size inb_S512x2048_S512x512_0_512,
          k0_pay9 (k0_pay2 (Vals.Xm m c))
            (dyvM.view.readAt (Elt F) (Rect.unit (s := S1024x2048) ![0, 512] S1024x512.size inb_S1024x2048_S1024x512_0_512).toLoadRect (Vals.DYV m c))⟩,
        ⟨Rect.unit (s := S512x2048) ![0, 0] S512x512.size inb_S512x2048_S512x512_0_0,
          k0_pay8 (k0_pay2 (Vals.Xm m c))
            (dyvM.view.readAt (Elt F) (Rect.unit (s := S1024x2048) ![0, 0] S1024x512.size inb_S1024x2048_S1024x512_0_0).toLoadRect (Vals.DYV m c))⟩]
      = Vals.PM m c := by
  rw [load_Dy_p0 m c, load_Dy_p1 m c, load_Dy_p2 m c, load_Dy_p3 m c]
  exact pm_writes_full m c f0

theorem pm_stored_w (c : Dev nD) (f0 : Buf (Elt F) (pmM.view.loc (c : Thread nD τ))) (v49 : FVec F S512x1024 .f32) :
    iprop((pmM.view.loc (c : Thread nD τ) ↦[pmM.view.set]{fullShare}
        pmM.view.writes (Elt F) f0
      [⟨Rect.unit (s := S512x2048) ![0, 1536] S512x512.size inb_S512x2048_S512x512_0_1536,
          k0_pay11 v49
            (dyvM.view.readAt (Elt F) (Rect.unit (s := S1024x2048) ![0, 1536] S1024x512.size inb_S1024x2048_S1024x512_0_1536).toLoadRect (Vals.DYV m c))⟩,
        ⟨Rect.unit (s := S512x2048) ![0, 1024] S512x512.size inb_S512x2048_S512x512_0_1024,
          k0_pay10 v49
            (dyvM.view.readAt (Elt F) (Rect.unit (s := S1024x2048) ![0, 1024] S1024x512.size inb_S1024x2048_S1024x512_0_1024).toLoadRect (Vals.DYV m c))⟩,
        ⟨Rect.unit (s := S512x2048) ![0, 512] S512x512.size inb_S512x2048_S512x512_0_512,
          k0_pay9 v49
            (dyvM.view.readAt (Elt F) (Rect.unit (s := S1024x2048) ![0, 512] S1024x512.size inb_S1024x2048_S1024x512_0_512).toLoadRect (Vals.DYV m c))⟩,
        ⟨Rect.unit (s := S512x2048) ![0, 0] S512x512.size inb_S512x2048_S512x512_0_0,
          k0_pay8 v49
            (dyvM.view.readAt (Elt F) (Rect.unit (s := S1024x2048) ![0, 0] S1024x512.size inb_S1024x2048_S1024x512_0_0).toLoadRect (Vals.DYV m c))⟩]) ∗ ⌜v49 = k0_pay2 (Vals.Xm m c)⌝)
      ⊢ (pmM.view.loc (c : Thread nD τ) ↦[pmM.view.set]{fullShare} Vals.PM m c : sProp 𝕄) := by
  iintro ⟨H, %hv⟩
  subst hv
  ihave H := (Entails.of_eq (congrArg (fun f => (pmM.view.loc (c : Thread nD τ) ↦[pmM.view.set]{fullShare} f : sProp 𝕄)) (pm_writes_eq m c f0))) $$ H
  iexact H

theorem ret_bind_app {E : Type → Type} {α β : Type} (a : α) (k : α → Prog E β) : (Prog.ret a).bind k = k a := rfl

end Cert.KernelIdeal.Sched

end
-- ==== Proof.KernelIdealH.Body.lean ====
import proofs.«901045_g7700000000001046_dist_rsdw_v7x_xy2x2_x_m1024_d1024_f4096_f32_1_alg».proof.Proof.KernelIdealH.Inv
import proofs.«901045_g7700000000001046_dist_rsdw_v7x_xy2x2_x_m1024_d1024_f4096_f32_1_alg».proof.Proof.KernelIdealH.Rules
import proofs.«901045_g7700000000001046_dist_rsdw_v7x_xy2x2_x_m1024_d1024_f4096_f32_1_alg».proof.Proof.KernelIdealH.Levels
import proofs.«901045_g7700000000001046_dist_rsdw_v7x_xy2x2_x_m1024_d1024_f4096_f32_1_alg».proof.Proof.KernelIdealH.ReadsLand
import proofs.«901045_g7700000000001046_dist_rsdw_v7x_xy2x2_x_m1024_d1024_f4096_f32_1_alg».proof.Proof.KernelIdealH.ReadsLoad
import proofs.«901045_g7700000000001046_dist_rsdw_v7x_xy2x2_x_m1024_d1024_f4096_f32_1_alg».proof.Proof.KernelIdealH.ReadsStore
import proofs.«901045_g7700000000001046_dist_rsdw_v7x_xy2x2_x_m1024_d1024_f4096_f32_1_alg».proof.Proof.KernelIdealH.ReadsOut
import proofs.«901045_g7700000000001046_dist_rsdw_v7x_xy2x2_x_m1024_d1024_f4096_f32_1_alg».proof.Proof.KernelIdealH.RegionsDy
import proofs.«901045_g7700000000001046_dist_rsdw_v7x_xy2x2_x_m1024_d1024_f4096_f32_1_alg».proof.Proof.KernelIdealH.RegionsStore
import proofs.«901045_g7700000000001046_dist_rsdw_v7x_xy2x2_x_m1024_d1024_f4096_f32_1_alg».proof.Proof.KernelIdealH.RegionsEnd
import proofs.«901045_g7700000000001046_dist_rsdw_v7x_xy2x2_x_m1024_d1024_f4096_f32_1_alg».proof.Proof.KernelIdealH.BodyEndOpen
import proofs.«901045_g7700000000001046_dist_rsdw_v7x_xy2x2_x_m1024_d1024_f4096_f32_1_alg».proof.Proof.KernelIdealH.BodyPost
import proofs.«901045_g7700000000001046_dist_rsdw_v7x_xy2x2_x_m1024_d1024_f4096_f32_1_alg».proof.Proof.KernelIdealH.ReadsOut0
import proofs.«901045_g7700000000001046_dist_rsdw_v7x_xy2x2_x_m1024_d1024_f4096_f32_1_alg».proof.Proof.KernelIdealH.RegionsStoreW
set_option maxRecDepth 16384

noncomputable section

namespace Cert.KernelIdeal.Sched

open Cert.KernelIdeal Cert.KernelIdeal.Gen Cert.KernelIdeal.Mesh
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

-- Writing the sum for chunk j extends the finished part of the device's own column half by one chunk.
theorem out_step (c : Dev nD) (j : Fin 16) (n₂ : Nat) (g0 : Buf (Elt F) (outM.view.loc (c : Thread nD τ))) {v}
    (hv : v = Vals.sC m c j) :
    (outM.view.loc (c : Thread nD τ) ↦[outM.view.set]{fullShare}
        outM.view.writes (Elt F) (outSt m c g0 j.val n₂) [⟨outR c j, v⟩] : sProp 𝕄)
      ⊢ (outM.view.loc (c : Thread nD τ) ↦[outM.view.set]{fullShare} outSt m c g0 (j.val + 1) n₂) := by
  subst hv
  exact Entails.of_eq (congrArg (fun f => (outM.view.loc (c : Thread nD τ) ↦[outM.view.set]{fullShare} f : sProp 𝕄))
    (out_store m c j n₂ g0))

-- Writing the neighbour's chunk j extends the finished part of the other column half by one chunk.
theorem out_step' (c : Dev nD) (j : Fin 16) (g0 : Buf (Elt F) (outM.view.loc (c : Thread nD τ))) {v}
    (hv : v = Vals.oC m c j) :
    (outM.view.loc (c : Thread nD τ) ↦[outM.view.set]{fullShare}
        outM.view.writes (Elt F) (outSt m c g0 16 j.val) [⟨outR' c j, v⟩] : sProp 𝕄)
      ⊢ (outM.view.loc (c : Thread nD τ) ↦[outM.view.set]{fullShare} outSt m c g0 16 (j.val + 1)) := by
  subst hv
  exact Entails.of_eq (congrArg (fun f => (outM.view.loc (c : Thread nD τ) ↦[outM.view.set]{fullShare} f : sProp 𝕄))
    (out_store' m c j g0))

-- After the write, chunk j of the buffer sent along the second axis holds chunk j of the device's sums.
theorem ys_step (c : Dev nD) (j : Fin 16) (f : Buf (Elt F) (ysM.view.loc (c : Thread nD τ))) {v}
    (hv : v = Vals.ysC m c j) :
    ((ysC j).view.loc (c : Thread nD τ) ↦[(ysC j).view.set]{fullShare}
        (ysM.access (chunkR j)).write (Elt F) f v Finset.univ : sProp 𝕄)
      ⊢ ysPts c j (Vals.YS m c) := by
  subst hv
  exact Entails.of_eq (pointsTo_congr (ys_store_in m c j f))

set_option allowUnsafeReducibility true in
attribute [local reducible] psPts rxPts ysPts yrPts xvPay dyPay sxPay rxPay syPay ryPay barPayX barPayY scr

-- One device's body, stepped from what the launch hands it to what it owes at its end; every buffer is known at every step as a term of the launch memory.
set_option maxHeartbeats 64000000 in
theorem sound_body (K : Dev nD × Fin 70 → ℕ) (c : Dev nD) (Kt : PUnit → sProp 𝕄) :
    iprop(bodyPre m ρ K c ∗ (bodyPost m ρ c -∗ Kt ⟨⟩))
      ⊢ wp frame (wpE (defs₀ (F := F)) 𝒱₀ (c : Thread nD τ) none) Set.univ
        (cc0_body (F := F) (Memref.whole main_arg0) (Memref.isWhole_whole _) (Memref.whole main_arg1) (Memref.isWhole_whole _) (win0_0.stage (cfg0.slots t₀ 0)) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12) Kt := by
  sl_unfold [cc0_body]
  unfold bodyPre ghost linear payToks creds argPts scratches scr
  rw [cells_groups c (fun g => atPos ER g 0 ∅ 0)]
  simp only [bigSep_fin4, bigSep_fin16]
  iintro ⟨⟨⟨⟨#Hrec, ⟨HpB, HpXv, ⟨HpDy0, HpDy1, HpDy2, HpDy3⟩, ⟨HpSx0, HpSx1, HpSx2, HpSx3, HpSx4, HpSx5, HpSx6, HpSx7, HpSx8, HpSx9, HpSx10, HpSx11, HpSx12, HpSx13, HpSx14, HpSx15⟩, ⟨HpRx0, HpRx1, HpRx2, HpRx3, HpRx4, HpRx5, HpRx6, HpRx7, HpRx8, HpRx9, HpRx10, HpRx11, HpRx12, HpRx13, HpRx14, HpRx15⟩, ⟨HpSy0, HpSy1, HpSy2, HpSy3, HpSy4, HpSy5, HpSy6, HpSy7, HpSy8, HpSy9, HpSy10, HpSy11, HpSy12, HpSy13, HpSy14, HpSy15⟩, ⟨HpRy0, HpRy1, HpRy2, HpRy3, HpRy4, HpRy5, HpRy6, HpRy7, HpRy8, HpRy9, HpRy10, HpRy11, HpRy12, HpRy13, HpRy14, HpRy15⟩⟩, HtBX, HtBY, HtXv, ⟨HtDy0, HtDy1, HtDy2, HtDy3⟩, ⟨HtSx0, HtSx1, HtSx2, HtSx3, HtSx4, HtSx5, HtSx6, HtSx7, HtSx8, HtSx9, HtSx10, HtSx11, HtSx12, HtSx13, HtSx14, HtSx15⟩, ⟨HtRx0, HtRx1, HtRx2, HtRx3, HtRx4, HtRx5, HtRx6, HtRx7, HtRx8, HtRx9, HtRx10, HtRx11, HtRx12, HtRx13, HtRx14, HtRx15⟩, ⟨HtSy0, HtSy1, HtSy2, HtSy3, HtSy4, HtSy5, HtSy6, HtSy7, HtSy8, HtSy9, HtSy10, HtSy11, HtSy12, HtSy13, HtSy14, HtSy15⟩, ⟨HtRy0, HtRy1, HtRy2, HtRy3, HtRy4, HtRy5, HtRy6, HtRy7, HtRy8, HtRy9, HtRy10, HtRy11, HtRy12, HtRy13, HtRy14, HtRy15⟩⟩, ⟨HcB, ⟨HcRx0, HcRx1, HcRx2, HcRx3, HcRx4, HcRx5, HcRx6, HcRx7, HcRx8, HcRx9, HcRx10, HcRx11, HcRx12, HcRx13, HcRx14, HcRx15⟩, ⟨HcRy0, HcRy1, HcRy2, HcRy3, HcRy4, HcRy5, HcRy6, HcRy7, HcRy8, HcRy9, HcRy10, HcRy11, HcRy12, HcRy13, HcRy14, HcRy15⟩⟩, #Hlev, ⟨HaX, HaD⟩, ⟨%f0, H0⟩, ⟨%f1, H1⟩, ⟨%f2, H2⟩, ⟨%f3, H3⟩, ⟨%f4, H4⟩, ⟨%f5, H5⟩, ⟨%f6, H6⟩⟩, Ho, ⟨%d0, %g0, %hg0, Hout⟩⟩, Hk⟩
  unfold Dat.owesAt Pipeline.owesWithin
  icases Ho with ⟨%W, %hW, HO⟩
  rw [show (dats m ρ 0 c).owed t₀.castSucc = O₀ c from rfl]
  ihave HaX := (Entails.of_eq (whole_view c main_arg0 (Vals.X m c))) $$ HaX
  ihave H0 := (Entails.of_eq (whole_view c cc0_scratch0 f0)) $$ H0
  ihave H3 := (Entails.of_eq (show ((((c : Thread nD τ).loc cc0_scratch3) ↦{fullShare} f3 : sProp 𝕄))
      = (pmM.view.loc (c : Thread nD τ) ↦[pmM.view.set]{fullShare} f3) by rw [View.set_whole])) $$ H3
  ihave Hout := (Entails.of_eq (show ((((c : Thread nD τ).loc cc0_stg0_0) ↦{fullShare} g0 : sProp 𝕄))
      = (outM.view.loc (c : Thread nD τ) ↦[outM.view.set]{fullShare} g0) by rw [View.set_whole])) $$ Hout
  ihave Hps := (ps_split c f2) $$ H2
  ihave Hps := (Entails.of_eq (bigSep_fin16 (fun j : Fin 16 => psPts c j f2))) $$ Hps
  icases Hps with ⟨Hp0, Hp1, Hp2, Hp3, Hp4, Hp5, Hp6, Hp7, Hp8, Hp9, Hp10, Hp11, Hp12, Hp13, Hp14, Hp15⟩
  ihave Hys := (ys_split c f5) $$ H5
  ihave Hys := (Entails.of_eq (bigSep_fin16 (fun j : Fin 16 => ysPts c j f5))) $$ Hys
  icases Hys with ⟨Hy0, Hy1, Hy2, Hy3, Hy4, Hy5, Hy6, Hy7, Hy8, Hy9, Hy10, Hy11, Hy12, Hy13, Hy14, Hy15⟩
  ihave Hdv := (dyv_split c f1) $$ H1
  ihave Hdv := (Entails.of_eq (bigSep_fin4 (fun b : Fin 4 => ((dyvC b).view.loc (c : Thread nD τ) ↦[(dyvC b).view.set]{fullShare} f1 : sProp 𝕄)))) $$ Hdv
  icases Hdv with ⟨Hd0, Hd1, Hd2, Hd3⟩
  ihave HDD := (argD_split c (Vals.D m c)) $$ HaD
  icases HDD with ⟨HDs, HDr⟩
  ihave HDs := (Entails.of_eq (bigSep_fin4 (fun b : Fin 4 => ((dySrc c b).view.loc (c : Thread nD τ) ↦[(dySrc c b).view.set]{fullShare} Vals.D m c : sProp 𝕄)))) $$ HDs
  icases HDs with ⟨HD0, HD1, HD2, HD3⟩
  sl_exec
  iapply (wp_copyXv m K c f0) $$ [$Hrec $HaX $H0 $HtXv]
  iintro HcXv
  first | sl_exec | skip
  iapply (wp_copyDy m K c 0 f1) $$ [$Hrec $HD0 $Hd0 $HtDy0]
  iintro HcDy0
  first | sl_exec | skip
  iapply (wp_copyDy m K c 1 f1) $$ [$Hrec $HD1 $Hd1 $HtDy1]
  iintro HcDy1
  first | sl_exec | skip
  iapply (wp_copyDy m K c 2 f1) $$ [$Hrec $HD2 $Hd2 $HtDy2]
  iintro HcDy2
  first | sl_exec | skip
  iapply (wp_copyDy m K c 3 f1) $$ [$Hrec $HD3 $Hd3 $HtDy3]
  iintro HcDy3
  first | sl_exec | skip
  rw [show O₀ c = O₁ c + tallyAt (barCell (xn c)) () 1 from rfl]
  iapply (wp_sigX m K c _ (devx_eq c _ (k0_dev1_lt c) (k0_dev1_eq c)) (O₁ c) W) $$ [$Hrec $HO $HtBX H4]
  · iexists f4; iexact H4
  iintro HO
  first | sl_exec | skip
  rw [show O₁ c = O₂ c + tallyAt (barCell (yn c)) () 1 from rfl]
  iapply (wp_sigY m K c _ (devy_eq c _ (k0_dev2_lt c) (k0_dev2_eq c)) (O₂ c) W) $$ [$Hrec $HO $HtBY H6]
  · iexists f6; iexact H6
  iintro HO
  first | sl_exec | skip
  iapply (wp_waitXv m K c (O₂ c) W (hcr := rfl)) $$ [$Hrec $HcXv $HO $HpXv]
  · iapply (mayWait_local c xvS (Or.inl (by decide)) 0 0); iexact Hlev
  iintro ⟨HO, HpXv, Hxv⟩
  icases Hxv with ⟨H0, HaX⟩
  first | sl_exec | skip
  iapply (wp_waitBar m K c (insert (SemLoc.dma xvS, ()) W)) $$ [$Hrec $HcB $HO $HpB]
  · iapply (mayWait_bar c); iexact Hlev
  iintro ⟨HO, HpB, Hqx, Hqy⟩
  rw [show O₂ c = oweY c 0 + oweX c 0 from rfl]
  icases Hqx with ⟨%fn, Hqx⟩
  icases Hqy with ⟨%fy, Hqy⟩
  ihave Hqx := (rx_split (xn c) fn) $$ Hqx
  ihave Hqx := (Entails.of_eq (bigSep_fin16 (fun j : Fin 16 => rxPts (xn c) j fn))) $$ Hqx
  icases Hqx with ⟨Hq0, Hq1, Hq2, Hq3, Hq4, Hq5, Hq6, Hq7, Hq8, Hq9, Hq10, Hq11, Hq12, Hq13, Hq14, Hq15⟩
  ihave Hqy := (yr_split (yn c) fy) $$ Hqy
  ihave Hqy := (Entails.of_eq (bigSep_fin16 (fun j : Fin 16 => yrPts (yn c) j fy))) $$ Hqy
  icases Hqy with ⟨Hr0, Hr1, Hr2, Hr3, Hr4, Hr5, Hr6, Hr7, Hr8, Hr9, Hr10, Hr11, Hr12, Hr13, Hr14, Hr15⟩
  first | sl_exec | skip
  rw [load_Xo m c, load_Xm m c]
  iapply (wp_waitDy m K c 0 (oweY c 0 + oweX c 0) _ (dst := dyvC 0) (hcr := rfl)) $$ [$Hrec $HcDy0 $HO $HpDy0]
  · iapply (mayWait_local c (dyS 0) (Or.inl (by decide)) 0 0); iexact Hlev
  iintro ⟨HO, HpDy0, Hdy0⟩
  icases Hdy0 with ⟨Hd0, HD0⟩
  first | rw [ret_bind_app] | skip
  first | sl_exec | skip
  ihave Hb := (ps_block_join c 0 f2) $$ [$Hp0 $Hp1 $Hp2 $Hp3]
  iapply (wp_load 𝒱₀ (c : Thread nD τ) none Set.univ (m := psM) (ps_load_set 0)) $$ Hb; iintro Hb
  first | rw [ret_bind_app] | skip
  first | sl_exec | skip
  iapply (wp_store 𝒱₀ (c : Thread nD τ) none Set.univ (m := psM) (r := blockR 0) (Mk := Finset.univ) (Finset.Subset.refl _)) $$ Hb; iintro Hb
  first | rw [ret_bind_app] | skip
  ihave Hb' := (ps_block_stored_w m c 0 f2 _) $$ [$Hb]
  · ipureintro
    sl_unfold_run_names
    rw [load_Dy_p0 m c]
    rfl
  icases Hb' with ⟨Hp0, Hp1, Hp2, Hp3⟩
  have e0 : oweX c 0 = oweX c 1 + tallyAt (rxCell (xn c) 0) () N := oweX_peel c 0 (by decide)
  rw [e0, ← add_assoc]
  first | sl_exec | skip
  iapply (wp_sendX m K c _ (devx_eq c _ (k0_dev3_lt c) (k0_dev3_eq c)) 0 fn (oweY c 0 + oweX c 1) _) $$ [$Hrec $Hp0 $Hq0 $HO $HtSx0 $HtRx0]
  iintro ⟨HcSx0, HO⟩
  first | rw [ret_bind_app] | skip
  have e1 : oweX c 1 = oweX c 2 + tallyAt (rxCell (xn c) 1) () N := oweX_peel c 1 (by decide)
  rw [e1, ← add_assoc]
  first | sl_exec | skip
  iapply (wp_sendX m K c _ (devx_eq c _ (k0_dev4_lt c) (k0_dev4_eq c)) 1 fn (oweY c 0 + oweX c 2) _) $$ [$Hrec $Hp1 $Hq1 $HO $HtSx1 $HtRx1]
  iintro ⟨HcSx1, HO⟩
  first | rw [ret_bind_app] | skip
  have e2 : oweX c 2 = oweX c 3 + tallyAt (rxCell (xn c) 2) () N := oweX_peel c 2 (by decide)
  rw [e2, ← add_assoc]
  first | sl_exec | skip
  iapply (wp_sendX m K c _ (devx_eq c _ (k0_dev5_lt c) (k0_dev5_eq c)) 2 fn (oweY c 0 + oweX c 3) _) $$ [$Hrec $Hp2 $Hq2 $HO $HtSx2 $HtRx2]
  iintro ⟨HcSx2, HO⟩
  first | rw [ret_bind_app] | skip
  have e3 : oweX c 3 = oweX c 4 + tallyAt (rxCell (xn c) 3) () N := oweX_peel c 3 (by decide)
  rw [e3, ← add_assoc]
  first | sl_exec | skip
  iapply (wp_sendX m K c _ (devx_eq c _ (k0_dev6_lt c) (k0_dev6_eq c)) 3 fn (oweY c 0 + oweX c 4) _) $$ [$Hrec $Hp3 $Hq3 $HO $HtSx3 $HtRx3]
  iintro ⟨HcSx3, HO⟩
  first | rw [ret_bind_app] | skip
  iapply (wp_waitDy m K c 1 (oweY c 0 + oweX c 4) _ (dst := dyvC 1) (hcr := rfl)) $$ [$Hrec $HcDy1 $HO $HpDy1]
  · iapply (mayWait_local c (dyS 1) (Or.inl (by decide)) 0 4); iexact Hlev
  iintro ⟨HO, HpDy1, Hdy1⟩
  icases Hdy1 with ⟨Hd1, HD1⟩
  first | rw [ret_bind_app] | skip
  first | sl_exec | skip
  ihave Hb := (ps_block_join c 1 f2) $$ [$Hp4 $Hp5 $Hp6 $Hp7]
  iapply (wp_load 𝒱₀ (c : Thread nD τ) none Set.univ (m := psM) (ps_load_set 1)) $$ Hb; iintro Hb
  first | rw [ret_bind_app] | skip
  first | sl_exec | skip
  iapply (wp_store 𝒱₀ (c : Thread nD τ) none Set.univ (m := psM) (r := blockR 1) (Mk := Finset.univ) (Finset.Subset.refl _)) $$ Hb; iintro Hb
  first | rw [ret_bind_app] | skip
  ihave Hb' := (ps_block_stored_w m c 1 f2 _) $$ [$Hb]
  · ipureintro
    sl_unfold_run_names
    rw [load_Dy_p1 m c]
    rfl
  icases Hb' with ⟨Hp4, Hp5, Hp6, Hp7⟩
  have e4 : oweX c 4 = oweX c 5 + tallyAt (rxCell (xn c) 4) () N := oweX_peel c 4 (by decide)
  rw [e4, ← add_assoc]
  first | sl_exec | skip
  iapply (wp_sendX m K c _ (devx_eq c _ (k0_dev7_lt c) (k0_dev7_eq c)) 4 fn (oweY c 0 + oweX c 5) _) $$ [$Hrec $Hp4 $Hq4 $HO $HtSx4 $HtRx4]
  iintro ⟨HcSx4, HO⟩
  first | rw [ret_bind_app] | skip
  have e5 : oweX c 5 = oweX c 6 + tallyAt (rxCell (xn c) 5) () N := oweX_peel c 5 (by decide)
  rw [e5, ← add_assoc]
  first | sl_exec | skip
  iapply (wp_sendX m K c _ (devx_eq c _ (k0_dev8_lt c) (k0_dev8_eq c)) 5 fn (oweY c 0 + oweX c 6) _) $$ [$Hrec $Hp5 $Hq5 $HO $HtSx5 $HtRx5]
  iintro ⟨HcSx5, HO⟩
  first | rw [ret_bind_app] | skip
  have e6 : oweX c 6 = oweX c 7 + tallyAt (rxCell (xn c) 6) () N := oweX_peel c 6 (by decide)
  rw [e6, ← add_assoc]
  first | sl_exec | skip
  iapply (wp_sendX m K c _ (devx_eq c _ (k0_dev9_lt c) (k0_dev9_eq c)) 6 fn (oweY c 0 + oweX c 7) _) $$ [$Hrec $Hp6 $Hq6 $HO $HtSx6 $HtRx6]
  iintro ⟨HcSx6, HO⟩
  first | rw [ret_bind_app] | skip
  have e7 : oweX c 7 = oweX c 8 + tallyAt (rxCell (xn c) 7) () N := oweX_peel c 7 (by decide)
  rw [e7, ← add_assoc]
  first | sl_exec | skip
  iapply (wp_sendX m K c _ (devx_eq c _ (k0_dev10_lt c) (k0_dev10_eq c)) 7 fn (oweY c 0 + oweX c 8) _) $$ [$Hrec $Hp7 $Hq7 $HO $HtSx7 $HtRx7]
  iintro ⟨HcSx7, HO⟩
  first | rw [ret_bind_app] | skip
  iapply (wp_waitDy m K c 2 (oweY c 0 + oweX c 8) _ (dst := dyvC 2) (hcr := rfl)) $$ [$Hrec $HcDy2 $HO $HpDy2]
  · iapply (mayWait_local c (dyS 2) (Or.inl (by decide)) 0 8); iexact Hlev
  iintro ⟨HO, HpDy2, Hdy2⟩
  icases Hdy2 with ⟨Hd2, HD2⟩
  first | rw [ret_bind_app] | skip
  first | sl_exec | skip
  ihave Hb := (ps_block_join c 2 f2) $$ [$Hp8 $Hp9 $Hp10 $Hp11]
  iapply (wp_load 𝒱₀ (c : Thread nD τ) none Set.univ (m := psM) (ps_load_set 2)) $$ Hb; iintro Hb
  first | rw [ret_bind_app] | skip
  first | sl_exec | skip
  iapply (wp_store 𝒱₀ (c : Thread nD τ) none Set.univ (m := psM) (r := blockR 2) (Mk := Finset.univ) (Finset.Subset.refl _)) $$ Hb; iintro Hb
  first | rw [ret_bind_app] | skip
  ihave Hb' := (ps_block_stored_w m c 2 f2 _) $$ [$Hb]
  · ipureintro
    sl_unfold_run_names
    rw [load_Dy_p2 m c]
    rfl
  icases Hb' with ⟨Hp8, Hp9, Hp10, Hp11⟩
  have e8 : oweX c 8 = oweX c 9 + tallyAt (rxCell (xn c) 8) () N := oweX_peel c 8 (by decide)
  rw [e8, ← add_assoc]
  first | sl_exec | skip
  iapply (wp_sendX m K c _ (devx_eq c _ (k0_dev11_lt c) (k0_dev11_eq c)) 8 fn (oweY c 0 + oweX c 9) _) $$ [$Hrec $Hp8 $Hq8 $HO $HtSx8 $HtRx8]
  iintro ⟨HcSx8, HO⟩
  first | rw [ret_bind_app] | skip
  have e9 : oweX c 9 = oweX c 10 + tallyAt (rxCell (xn c) 9) () N := oweX_peel c 9 (by decide)
  rw [e9, ← add_assoc]
  first | sl_exec | skip
  iapply (wp_sendX m K c _ (devx_eq c _ (k0_dev12_lt c) (k0_dev12_eq c)) 9 fn (oweY c 0 + oweX c 10) _) $$ [$Hrec $Hp9 $Hq9 $HO $HtSx9 $HtRx9]
  iintro ⟨HcSx9, HO⟩
  first | rw [ret_bind_app] | skip
  have e10 : oweX c 10 = oweX c 11 + tallyAt (rxCell (xn c) 10) () N := oweX_peel c 10 (by decide)
  rw [e10, ← add_assoc]
  first | sl_exec | skip
  iapply (wp_sendX m K c _ (devx_eq c _ (k0_dev13_lt c) (k0_dev13_eq c)) 10 fn (oweY c 0 + oweX c 11) _) $$ [$Hrec $Hp10 $Hq10 $HO $HtSx10 $HtRx10]
  iintro ⟨HcSx10, HO⟩
  first | rw [ret_bind_app] | skip
  have e11 : oweX c 11 = oweX c 12 + tallyAt (rxCell (xn c) 11) () N := oweX_peel c 11 (by decide)
  rw [e11, ← add_assoc]
  first | sl_exec | skip
  iapply (wp_sendX m K c _ (devx_eq c _ (k0_dev14_lt c) (k0_dev14_eq c)) 11 fn (oweY c 0 + oweX c 12) _) $$ [$Hrec $Hp11 $Hq11 $HO $HtSx11 $HtRx11]
  iintro ⟨HcSx11, HO⟩
  first | rw [ret_bind_app] | skip
  iapply (wp_waitDy m K c 3 (oweY c 0 + oweX c 12) _ (dst := dyvC 3) (hcr := rfl)) $$ [$Hrec $HcDy3 $HO $HpDy3]
  · iapply (mayWait_local c (dyS 3) (Or.inl (by decide)) 0 12); iexact Hlev
  iintro ⟨HO, HpDy3, Hdy3⟩
  icases Hdy3 with ⟨Hd3, HD3⟩
  first | rw [ret_bind_app] | skip
  first | sl_exec | skip
  ihave Hb := (ps_block_join c 3 f2) $$ [$Hp12 $Hp13 $Hp14 $Hp15]
  iapply (wp_load 𝒱₀ (c : Thread nD τ) none Set.univ (m := psM) (ps_load_set 3)) $$ Hb; iintro Hb
  first | rw [ret_bind_app] | skip
  first | sl_exec | skip
  iapply (wp_store 𝒱₀ (c : Thread nD τ) none Set.univ (m := psM) (r := blockR 3) (Mk := Finset.univ) (Finset.Subset.refl _)) $$ Hb; iintro Hb
  first | rw [ret_bind_app] | skip
  ihave Hb' := (ps_block_stored_w m c 3 f2 _) $$ [$Hb]
  · ipureintro
    sl_unfold_run_names
    rw [load_Dy_p3 m c]
    rfl
  icases Hb' with ⟨Hp12, Hp13, Hp14, Hp15⟩
  have e12 : oweX c 12 = oweX c 13 + tallyAt (rxCell (xn c) 12) () N := oweX_peel c 12 (by decide)
  rw [e12, ← add_assoc]
  first | sl_exec | skip
  iapply (wp_sendX m K c _ (devx_eq c _ (k0_dev15_lt c) (k0_dev15_eq c)) 12 fn (oweY c 0 + oweX c 13) _) $$ [$Hrec $Hp12 $Hq12 $HO $HtSx12 $HtRx12]
  iintro ⟨HcSx12, HO⟩
  first | rw [ret_bind_app] | skip
  have e13 : oweX c 13 = oweX c 14 + tallyAt (rxCell (xn c) 13) () N := oweX_peel c 13 (by decide)
  rw [e13, ← add_assoc]
  first | sl_exec | skip
  iapply (wp_sendX m K c _ (devx_eq c _ (k0_dev16_lt c) (k0_dev16_eq c)) 13 fn (oweY c 0 + oweX c 14) _) $$ [$Hrec $Hp13 $Hq13 $HO $HtSx13 $HtRx13]
  iintro ⟨HcSx13, HO⟩
  first | rw [ret_bind_app] | skip
  have e14 : oweX c 14 = oweX c 15 + tallyAt (rxCell (xn c) 14) () N := oweX_peel c 14 (by decide)
  rw [e14, ← add_assoc]
  first | sl_exec | skip
  iapply (wp_sendX m K c _ (devx_eq c _ (k0_dev17_lt c) (k0_dev17_eq c)) 14 fn (oweY c 0 + oweX c 15) _) $$ [$Hrec $Hp14 $Hq14 $HO $HtSx14 $HtRx14]
  iintro ⟨HcSx14, HO⟩
  first | rw [ret_bind_app] | skip
  have e15 : oweX c 15 = oweX c 16 + tallyAt (rxCell (xn c) 15) () N := oweX_peel c 15 (by decide)
  rw [e15, ← add_assoc]
  first | sl_exec | skip
  iapply (wp_sendX m K c _ (devx_eq c _ (k0_dev18_lt c) (k0_dev18_eq c)) 15 fn (oweY c 0 + oweX c 16) _) $$ [$Hrec $Hp15 $Hq15 $HO $HtSx15 $HtRx15]
  iintro ⟨HcSx15, HO⟩
  first | rw [ret_bind_app] | skip
  rw [oweX_end, add_zero]
  first | sl_exec | skip
  ihave H3 := (pm_stored_w m c f3 _) $$ [$H3]
  · ipureintro; rfl
  ihave Hout := (Entails.of_eq (congrArg (fun f => (outM.view.loc (c : Thread nD τ) ↦[outM.view.set]{fullShare} f : sProp 𝕄)) (outSt_zero m c g0).symm)) $$ Hout
  first | sl_exec | skip
  iapply (wp_waitRx m K c 0 (oweY c 0) _ (dst := rxC 0) (hcr := rfl)) $$ [$Hrec $HcRx0 $HO $HpRx0]
  · iapply (mayWait_rx c 0 0); iexact Hlev
  iintro ⟨HO, HpRx0, Hrx0⟩
  first | sl_exec | skip
  sl_unfold_run_names
  ihave Hout := (out_step m c 0 0 g0 (congrArg₂ k0_pay12 (load_pm m c 0) (load_rx m c 0))) $$ [Hout]
  · iexact Hout
  ihave Hy0 := (ys_step m c 0 f5 (congrArg₂ k0_pay13 (load_pm m c 0) (load_rx m c 0))) $$ [Hy0]
  · iexact Hy0
  have eY0 : oweY c 0 = oweY c 1 + tallyAt (ryCell (yn c) 0) () N := oweY_peel c 0 (by decide)
  rw [eY0]
  iapply (wp_sendY m K c _ (Mesh.devy_eq c _ _ (k0_dev19_eq c)) 0 _ (oweY c 1) _) $$ [$Hrec $Hy0 $Hr0 $HO $HtSy0 $HtRy0]
  iintro ⟨HcSy0, HO⟩
  first | sl_exec | skip
  iapply (wp_waitRx m K c 1 (oweY c 1) _ (dst := rxC 1) (hcr := rfl)) $$ [$Hrec $HcRx1 $HO $HpRx1]
  · iapply (mayWait_rx c 1 1); iexact Hlev
  iintro ⟨HO, HpRx1, Hrx1⟩
  first | sl_exec | skip
  sl_unfold_run_names
  ihave Hout := (out_step m c 1 0 g0 (congrArg₂ k0_pay14 (load_pm m c 1) (load_rx m c 1))) $$ [Hout]
  · iexact Hout
  ihave Hy1 := (ys_step m c 1 f5 (congrArg₂ k0_pay15 (load_pm m c 1) (load_rx m c 1))) $$ [Hy1]
  · iexact Hy1
  have eY1 : oweY c 1 = oweY c 2 + tallyAt (ryCell (yn c) 1) () N := oweY_peel c 1 (by decide)
  rw [eY1]
  iapply (wp_sendY m K c _ (Mesh.devy_eq c _ _ (k0_dev20_eq c)) 1 _ (oweY c 2) _) $$ [$Hrec $Hy1 $Hr1 $HO $HtSy1 $HtRy1]
  iintro ⟨HcSy1, HO⟩
  first | sl_exec | skip
  iapply (wp_waitRx m K c 2 (oweY c 2) _ (dst := rxC 2) (hcr := rfl)) $$ [$Hrec $HcRx2 $HO $HpRx2]
  · iapply (mayWait_rx c 2 2); iexact Hlev
  iintro ⟨HO, HpRx2, Hrx2⟩
  first | sl_exec | skip
  sl_unfold_run_names
  ihave Hout := (out_step m c 2 0 g0 (congrArg₂ k0_pay16 (load_pm m c 2) (load_rx m c 2))) $$ [Hout]
  · iexact Hout
  ihave Hy2 := (ys_step m c 2 f5 (congrArg₂ k0_pay17 (load_pm m c 2) (load_rx m c 2))) $$ [Hy2]
  · iexact Hy2
  have eY2 : oweY c 2 = oweY c 3 + tallyAt (ryCell (yn c) 2) () N := oweY_peel c 2 (by decide)
  rw [eY2]
  iapply (wp_sendY m K c _ (Mesh.devy_eq c _ _ (k0_dev21_eq c)) 2 _ (oweY c 3) _) $$ [$Hrec $Hy2 $Hr2 $HO $HtSy2 $HtRy2]
  iintro ⟨HcSy2, HO⟩
  first | sl_exec | skip
  iapply (wp_waitRx m K c 3 (oweY c 3) _ (dst := rxC 3) (hcr := rfl)) $$ [$Hrec $HcRx3 $HO $HpRx3]
  · iapply (mayWait_rx c 3 3); iexact Hlev
  iintro ⟨HO, HpRx3, Hrx3⟩
  first | sl_exec | skip
  sl_unfold_run_names
  ihave Hout := (out_step m c 3 0 g0 (congrArg₂ k0_pay18 (load_pm m c 3) (load_rx m c 3))) $$ [Hout]
  · iexact Hout
  ihave Hy3 := (ys_step m c 3 f5 (congrArg₂ k0_pay19 (load_pm m c 3) (load_rx m c 3))) $$ [Hy3]
  · iexact Hy3
  have eY3 : oweY c 3 = oweY c 4 + tallyAt (ryCell (yn c) 3) () N := oweY_peel c 3 (by decide)
  rw [eY3]
  iapply (wp_sendY m K c _ (Mesh.devy_eq c _ _ (k0_dev22_eq c)) 3 _ (oweY c 4) _) $$ [$Hrec $Hy3 $Hr3 $HO $HtSy3 $HtRy3]
  iintro ⟨HcSy3, HO⟩
  first | sl_exec | skip
  iapply (wp_waitRx m K c 4 (oweY c 4) _ (dst := rxC 4) (hcr := rfl)) $$ [$Hrec $HcRx4 $HO $HpRx4]
  · iapply (mayWait_rx c 4 4); iexact Hlev
  iintro ⟨HO, HpRx4, Hrx4⟩
  first | sl_exec | skip
  sl_unfold_run_names
  ihave Hout := (out_step m c 4 0 g0 (congrArg₂ k0_pay20 (load_pm m c 4) (load_rx m c 4))) $$ [Hout]
  · iexact Hout
  ihave Hy4 := (ys_step m c 4 f5 (congrArg₂ k0_pay21 (load_pm m c 4) (load_rx m c 4))) $$ [Hy4]
  · iexact Hy4
  have eY4 : oweY c 4 = oweY c 5 + tallyAt (ryCell (yn c) 4) () N := oweY_peel c 4 (by decide)
  rw [eY4]
  iapply (wp_sendY m K c _ (Mesh.devy_eq c _ _ (k0_dev23_eq c)) 4 _ (oweY c 5) _) $$ [$Hrec $Hy4 $Hr4 $HO $HtSy4 $HtRy4]
  iintro ⟨HcSy4, HO⟩
  first | sl_exec | skip
  iapply (wp_waitRx m K c 5 (oweY c 5) _ (dst := rxC 5) (hcr := rfl)) $$ [$Hrec $HcRx5 $HO $HpRx5]
  · iapply (mayWait_rx c 5 5); iexact Hlev
  iintro ⟨HO, HpRx5, Hrx5⟩
  first | sl_exec | skip
  sl_unfold_run_names
  ihave Hout := (out_step m c 5 0 g0 (congrArg₂ k0_pay22 (load_pm m c 5) (load_rx m c 5))) $$ [Hout]
  · iexact Hout
  ihave Hy5 := (ys_step m c 5 f5 (congrArg₂ k0_pay23 (load_pm m c 5) (load_rx m c 5))) $$ [Hy5]
  · iexact Hy5
  have eY5 : oweY c 5 = oweY c 6 + tallyAt (ryCell (yn c) 5) () N := oweY_peel c 5 (by decide)
  rw [eY5]
  iapply (wp_sendY m K c _ (Mesh.devy_eq c _ _ (k0_dev24_eq c)) 5 _ (oweY c 6) _) $$ [$Hrec $Hy5 $Hr5 $HO $HtSy5 $HtRy5]
  iintro ⟨HcSy5, HO⟩
  first | sl_exec | skip
  iapply (wp_waitRx m K c 6 (oweY c 6) _ (dst := rxC 6) (hcr := rfl)) $$ [$Hrec $HcRx6 $HO $HpRx6]
  · iapply (mayWait_rx c 6 6); iexact Hlev
  iintro ⟨HO, HpRx6, Hrx6⟩
  first | sl_exec | skip
  sl_unfold_run_names
  ihave Hout := (out_step m c 6 0 g0 (congrArg₂ k0_pay24 (load_pm m c 6) (load_rx m c 6))) $$ [Hout]
  · iexact Hout
  ihave Hy6 := (ys_step m c 6 f5 (congrArg₂ k0_pay25 (load_pm m c 6) (load_rx m c 6))) $$ [Hy6]
  · iexact Hy6
  have eY6 : oweY c 6 = oweY c 7 + tallyAt (ryCell (yn c) 6) () N := oweY_peel c 6 (by decide)
  rw [eY6]
  iapply (wp_sendY m K c _ (Mesh.devy_eq c _ _ (k0_dev25_eq c)) 6 _ (oweY c 7) _) $$ [$Hrec $Hy6 $Hr6 $HO $HtSy6 $HtRy6]
  iintro ⟨HcSy6, HO⟩
  first | sl_exec | skip
  iapply (wp_waitRx m K c 7 (oweY c 7) _ (dst := rxC 7) (hcr := rfl)) $$ [$Hrec $HcRx7 $HO $HpRx7]
  · iapply (mayWait_rx c 7 7); iexact Hlev
  iintro ⟨HO, HpRx7, Hrx7⟩
  first | sl_exec | skip
  sl_unfold_run_names
  ihave Hout := (out_step m c 7 0 g0 (congrArg₂ k0_pay26 (load_pm m c 7) (load_rx m c 7))) $$ [Hout]
  · iexact Hout
  ihave Hy7 := (ys_step m c 7 f5 (congrArg₂ k0_pay27 (load_pm m c 7) (load_rx m c 7))) $$ [Hy7]
  · iexact Hy7
  have eY7 : oweY c 7 = oweY c 8 + tallyAt (ryCell (yn c) 7) () N := oweY_peel c 7 (by decide)
  rw [eY7]
  iapply (wp_sendY m K c _ (Mesh.devy_eq c _ _ (k0_dev26_eq c)) 7 _ (oweY c 8) _) $$ [$Hrec $Hy7 $Hr7 $HO $HtSy7 $HtRy7]
  iintro ⟨HcSy7, HO⟩
  first | sl_exec | skip
  iapply (wp_waitRx m K c 8 (oweY c 8) _ (dst := rxC 8) (hcr := rfl)) $$ [$Hrec $HcRx8 $HO $HpRx8]
  · iapply (mayWait_rx c 8 8); iexact Hlev
  iintro ⟨HO, HpRx8, Hrx8⟩
  first | sl_exec | skip
  sl_unfold_run_names
  ihave Hout := (out_step m c 8 0 g0 (congrArg₂ k0_pay28 (load_pm m c 8) (load_rx m c 8))) $$ [Hout]
  · iexact Hout
  ihave Hy8 := (ys_step m c 8 f5 (congrArg₂ k0_pay29 (load_pm m c 8) (load_rx m c 8))) $$ [Hy8]
  · iexact Hy8
  have eY8 : oweY c 8 = oweY c 9 + tallyAt (ryCell (yn c) 8) () N := oweY_peel c 8 (by decide)
  rw [eY8]
  iapply (wp_sendY m K c _ (Mesh.devy_eq c _ _ (k0_dev27_eq c)) 8 _ (oweY c 9) _) $$ [$Hrec $Hy8 $Hr8 $HO $HtSy8 $HtRy8]
  iintro ⟨HcSy8, HO⟩
  first | sl_exec | skip
  iapply (wp_waitRx m K c 9 (oweY c 9) _ (dst := rxC 9) (hcr := rfl)) $$ [$Hrec $HcRx9 $HO $HpRx9]
  · iapply (mayWait_rx c 9 9); iexact Hlev
  iintro ⟨HO, HpRx9, Hrx9⟩
  first | sl_exec | skip
  sl_unfold_run_names
  ihave Hout := (out_step m c 9 0 g0 (congrArg₂ k0_pay30 (load_pm m c 9) (load_rx m c 9))) $$ [Hout]
  · iexact Hout
  ihave Hy9 := (ys_step m c 9 f5 (congrArg₂ k0_pay31 (load_pm m c 9) (load_rx m c 9))) $$ [Hy9]
  · iexact Hy9
  have eY9 : oweY c 9 = oweY c 10 + tallyAt (ryCell (yn c) 9) () N := oweY_peel c 9 (by decide)
  rw [eY9]
  iapply (wp_sendY m K c _ (Mesh.devy_eq c _ _ (k0_dev28_eq c)) 9 _ (oweY c 10) _) $$ [$Hrec $Hy9 $Hr9 $HO $HtSy9 $HtRy9]
  iintro ⟨HcSy9, HO⟩
  first | sl_exec | skip
  iapply (wp_waitRx m K c 10 (oweY c 10) _ (dst := rxC 10) (hcr := rfl)) $$ [$Hrec $HcRx10 $HO $HpRx10]
  · iapply (mayWait_rx c 10 10); iexact Hlev
  iintro ⟨HO, HpRx10, Hrx10⟩
  first | sl_exec | skip
  sl_unfold_run_names
  ihave Hout := (out_step m c 10 0 g0 (congrArg₂ k0_pay32 (load_pm m c 10) (load_rx m c 10))) $$ [Hout]
  · iexact Hout
  ihave Hy10 := (ys_step m c 10 f5 (congrArg₂ k0_pay33 (load_pm m c 10) (load_rx m c 10))) $$ [Hy10]
  · iexact Hy10
  have eY10 : oweY c 10 = oweY c 11 + tallyAt (ryCell (yn c) 10) () N := oweY_peel c 10 (by decide)
  rw [eY10]
  iapply (wp_sendY m K c _ (Mesh.devy_eq c _ _ (k0_dev29_eq c)) 10 _ (oweY c 11) _) $$ [$Hrec $Hy10 $Hr10 $HO $HtSy10 $HtRy10]
  iintro ⟨HcSy10, HO⟩
  first | sl_exec | skip
  iapply (wp_waitRx m K c 11 (oweY c 11) _ (dst := rxC 11) (hcr := rfl)) $$ [$Hrec $HcRx11 $HO $HpRx11]
  · iapply (mayWait_rx c 11 11); iexact Hlev
  iintro ⟨HO, HpRx11, Hrx11⟩
  first | sl_exec | skip
  sl_unfold_run_names
  ihave Hout := (out_step m c 11 0 g0 (congrArg₂ k0_pay34 (load_pm m c 11) (load_rx m c 11))) $$ [Hout]
  · iexact Hout
  ihave Hy11 := (ys_step m c 11 f5 (congrArg₂ k0_pay35 (load_pm m c 11) (load_rx m c 11))) $$ [Hy11]
  · iexact Hy11
  have eY11 : oweY c 11 = oweY c 12 + tallyAt (ryCell (yn c) 11) () N := oweY_peel c 11 (by decide)
  rw [eY11]
  iapply (wp_sendY m K c _ (Mesh.devy_eq c _ _ (k0_dev30_eq c)) 11 _ (oweY c 12) _) $$ [$Hrec $Hy11 $Hr11 $HO $HtSy11 $HtRy11]
  iintro ⟨HcSy11, HO⟩
  first | sl_exec | skip
  iapply (wp_waitRx m K c 12 (oweY c 12) _ (dst := rxC 12) (hcr := rfl)) $$ [$Hrec $HcRx12 $HO $HpRx12]
  · iapply (mayWait_rx c 12 12); iexact Hlev
  iintro ⟨HO, HpRx12, Hrx12⟩
  first | sl_exec | skip
  sl_unfold_run_names
  ihave Hout := (out_step m c 12 0 g0 (congrArg₂ k0_pay36 (load_pm m c 12) (load_rx m c 12))) $$ [Hout]
  · iexact Hout
  ihave Hy12 := (ys_step m c 12 f5 (congrArg k0_pay38 (congrArg₂ k0_pay37 (load_pm m c 12) (load_rx m c 12)))) $$ [Hy12]
  · iexact Hy12
  have eY12 : oweY c 12 = oweY c 13 + tallyAt (ryCell (yn c) 12) () N := oweY_peel c 12 (by decide)
  rw [eY12]
  iapply (wp_sendY m K c _ (Mesh.devy_eq c _ _ (k0_dev31_eq c)) 12 _ (oweY c 13) _) $$ [$Hrec $Hy12 $Hr12 $HO $HtSy12 $HtRy12]
  iintro ⟨HcSy12, HO⟩
  first | sl_exec | skip
  iapply (wp_waitRx m K c 13 (oweY c 13) _ (dst := rxC 13) (hcr := rfl)) $$ [$Hrec $HcRx13 $HO $HpRx13]
  · iapply (mayWait_rx c 13 13); iexact Hlev
  iintro ⟨HO, HpRx13, Hrx13⟩
  first | sl_exec | skip
  sl_unfold_run_names
  ihave Hout := (out_step m c 13 0 g0 (congrArg₂ k0_pay39 (load_pm m c 13) (load_rx m c 13))) $$ [Hout]
  · iexact Hout
  ihave Hy13 := (ys_step m c 13 f5 (congrArg k0_pay41 (congrArg₂ k0_pay40 (load_pm m c 13) (load_rx m c 13)))) $$ [Hy13]
  · iexact Hy13
  have eY13 : oweY c 13 = oweY c 14 + tallyAt (ryCell (yn c) 13) () N := oweY_peel c 13 (by decide)
  rw [eY13]
  iapply (wp_sendY m K c _ (Mesh.devy_eq c _ _ (k0_dev32_eq c)) 13 _ (oweY c 14) _) $$ [$Hrec $Hy13 $Hr13 $HO $HtSy13 $HtRy13]
  iintro ⟨HcSy13, HO⟩
  first | sl_exec | skip
  iapply (wp_waitRx m K c 14 (oweY c 14) _ (dst := rxC 14) (hcr := rfl)) $$ [$Hrec $HcRx14 $HO $HpRx14]
  · iapply (mayWait_rx c 14 14); iexact Hlev
  iintro ⟨HO, HpRx14, Hrx14⟩
  first | sl_exec | skip
  sl_unfold_run_names
  ihave Hout := (out_step m c 14 0 g0 (congrArg₂ k0_pay42 (load_pm m c 14) (load_rx m c 14))) $$ [Hout]
  · iexact Hout
  ihave Hy14 := (ys_step m c 14 f5 (congrArg k0_pay43 (congrArg₂ k0_pay42 (load_pm m c 14) (load_rx m c 14)))) $$ [Hy14]
  · iexact Hy14
  have eY14 : oweY c 14 = oweY c 15 + tallyAt (ryCell (yn c) 14) () N := oweY_peel c 14 (by decide)
  rw [eY14]
  iapply (wp_sendY m K c _ (Mesh.devy_eq c _ _ (k0_dev33_eq c)) 14 _ (oweY c 15) _) $$ [$Hrec $Hy14 $Hr14 $HO $HtSy14 $HtRy14]
  iintro ⟨HcSy14, HO⟩
  first | sl_exec | skip
  iapply (wp_waitRx m K c 15 (oweY c 15) _ (dst := rxC 15) (hcr := rfl)) $$ [$Hrec $HcRx15 $HO $HpRx15]
  · iapply (mayWait_rx c 15 15); iexact Hlev
  iintro ⟨HO, HpRx15, Hrx15⟩
  first | sl_exec | skip
  sl_unfold_run_names
  ihave Hout := (out_step m c 15 0 g0 (congrArg₂ k0_pay44 (load_pm m c 15) (load_rx m c 15))) $$ [Hout]
  · iexact Hout
  ihave Hy15 := (ys_step m c 15 f5 (congrArg k0_pay45 (congrArg₂ k0_pay44 (load_pm m c 15) (load_rx m c 15)))) $$ [Hy15]
  · iexact Hy15
  have eY15 : oweY c 15 = oweY c 16 + tallyAt (ryCell (yn c) 15) () N := oweY_peel c 15 (by decide)
  rw [eY15]
  iapply (wp_sendY m K c _ (Mesh.devy_eq c _ _ (k0_dev34_eq c)) 15 _ (oweY c 16) _) $$ [$Hrec $Hy15 $Hr15 $HO $HtSy15 $HtRy15]
  iintro ⟨HcSy15, HO⟩
  rw [oweY_end]
  first | sl_exec | skip
  iapply (wp_waitRy m K c 0 0 _ (dst := yrC 0) (hcr := rfl)) $$ [$Hrec $HcRy0 $HO $HpRy0]
  · rw [MayWait_zero]; iempintro
  iintro ⟨HO, HpRy0, Hry0⟩
  first | sl_exec | skip
  sl_unfold_run_names
  ihave Hout := (out_step' m c 0 g0 (congrArg k0_pay46 (load_yr m c 0))) $$ [Hout]
  · iexact Hout
  first | sl_exec | skip
  iapply (wp_waitRy m K c 1 0 _ (dst := yrC 1) (hcr := rfl)) $$ [$Hrec $HcRy1 $HO $HpRy1]
  · rw [MayWait_zero]; iempintro
  iintro ⟨HO, HpRy1, Hry1⟩
  first | sl_exec | skip
  sl_unfold_run_names
  ihave Hout := (out_step' m c 1 g0 (congrArg k0_pay47 (load_yr m c 1))) $$ [Hout]
  · iexact Hout
  first | sl_exec | skip
  iapply (wp_waitRy m K c 2 0 _ (dst := yrC 2) (hcr := rfl)) $$ [$Hrec $HcRy2 $HO $HpRy2]
  · rw [MayWait_zero]; iempintro
  iintro ⟨HO, HpRy2, Hry2⟩
  first | sl_exec | skip
  sl_unfold_run_names
  ihave Hout := (out_step' m c 2 g0 (congrArg k0_pay48 (load_yr m c 2))) $$ [Hout]
  · iexact Hout
  first | sl_exec | skip
  iapply (wp_waitRy m K c 3 0 _ (dst := yrC 3) (hcr := rfl)) $$ [$Hrec $HcRy3 $HO $HpRy3]
  · rw [MayWait_zero]; iempintro
  iintro ⟨HO, HpRy3, Hry3⟩
  first | sl_exec | skip
  sl_unfold_run_names
  ihave Hout := (out_step' m c 3 g0 (congrArg k0_pay49 (load_yr m c 3))) $$ [Hout]
  · iexact Hout
  first | sl_exec | skip
  iapply (wp_waitRy m K c 4 0 _ (dst := yrC 4) (hcr := rfl)) $$ [$Hrec $HcRy4 $HO $HpRy4]
  · rw [MayWait_zero]; iempintro
  iintro ⟨HO, HpRy4, Hry4⟩
  first | sl_exec | skip
  sl_unfold_run_names
  ihave Hout := (out_step' m c 4 g0 (congrArg k0_pay50 (load_yr m c 4))) $$ [Hout]
  · iexact Hout
  first | sl_exec | skip
  iapply (wp_waitRy m K c 5 0 _ (dst := yrC 5) (hcr := rfl)) $$ [$Hrec $HcRy5 $HO $HpRy5]
  · rw [MayWait_zero]; iempintro
  iintro ⟨HO, HpRy5, Hry5⟩
  first | sl_exec | skip
  sl_unfold_run_names
  ihave Hout := (out_step' m c 5 g0 (congrArg k0_pay51 (load_yr m c 5))) $$ [Hout]
  · iexact Hout
  first | sl_exec | skip
  iapply (wp_waitRy m K c 6 0 _ (dst := yrC 6) (hcr := rfl)) $$ [$Hrec $HcRy6 $HO $HpRy6]
  · rw [MayWait_zero]; iempintro
  iintro ⟨HO, HpRy6, Hry6⟩
  first | sl_exec | skip
  sl_unfold_run_names
  ihave Hout := (out_step' m c 6 g0 (congrArg k0_pay52 (load_yr m c 6))) $$ [Hout]
  · iexact Hout
  first | sl_exec | skip
  iapply (wp_waitRy m K c 7 0 _ (dst := yrC 7) (hcr := rfl)) $$ [$Hrec $HcRy7 $HO $HpRy7]
  · rw [MayWait_zero]; iempintro
  iintro ⟨HO, HpRy7, Hry7⟩
  first | sl_exec | skip
  sl_unfold_run_names
  ihave Hout := (out_step' m c 7 g0 (congrArg k0_pay53 (load_yr m c 7))) $$ [Hout]
  · iexact Hout
  first | sl_exec | skip
  iapply (wp_waitRy m K c 8 0 _ (dst := yrC 8) (hcr := rfl)) $$ [$Hrec $HcRy8 $HO $HpRy8]
  · rw [MayWait_zero]; iempintro
  iintro ⟨HO, HpRy8, Hry8⟩
  first | sl_exec | skip
  sl_unfold_run_names
  ihave Hout := (out_step' m c 8 g0 (congrArg k0_pay54 (load_yr m c 8))) $$ [Hout]
  · iexact Hout
  first | sl_exec | skip
  iapply (wp_waitRy m K c 9 0 _ (dst := yrC 9) (hcr := rfl)) $$ [$Hrec $HcRy9 $HO $HpRy9]
  · rw [MayWait_zero]; iempintro
  iintro ⟨HO, HpRy9, Hry9⟩
  first | sl_exec | skip
  sl_unfold_run_names
  ihave Hout := (out_step' m c 9 g0 (congrArg k0_pay55 (load_yr m c 9))) $$ [Hout]
  · iexact Hout
  first | sl_exec | skip
  iapply (wp_waitRy m K c 10 0 _ (dst := yrC 10) (hcr := rfl)) $$ [$Hrec $HcRy10 $HO $HpRy10]
  · rw [MayWait_zero]; iempintro
  iintro ⟨HO, HpRy10, Hry10⟩
  first | sl_exec | skip
  sl_unfold_run_names
  ihave Hout := (out_step' m c 10 g0 (congrArg k0_pay56 (load_yr m c 10))) $$ [Hout]
  · iexact Hout
  first | sl_exec | skip
  iapply (wp_waitRy m K c 11 0 _ (dst := yrC 11) (hcr := rfl)) $$ [$Hrec $HcRy11 $HO $HpRy11]
  · rw [MayWait_zero]; iempintro
  iintro ⟨HO, HpRy11, Hry11⟩
  first | sl_exec | skip
  sl_unfold_run_names
  ihave Hout := (out_step' m c 11 g0 (congrArg k0_pay57 (load_yr m c 11))) $$ [Hout]
  · iexact Hout
  first | sl_exec | skip
  iapply (wp_waitRy m K c 12 0 _ (dst := yrC 12) (hcr := rfl)) $$ [$Hrec $HcRy12 $HO $HpRy12]
  · rw [MayWait_zero]; iempintro
  iintro ⟨HO, HpRy12, Hry12⟩
  first | sl_exec | skip
  sl_unfold_run_names
  ihave Hout := (out_step' m c 12 g0 (congrArg k0_pay58 (load_yr m c 12))) $$ [Hout]
  · iexact Hout
  first | sl_exec | skip
  iapply (wp_waitRy m K c 13 0 _ (dst := yrC 13) (hcr := rfl)) $$ [$Hrec $HcRy13 $HO $HpRy13]
  · rw [MayWait_zero]; iempintro
  iintro ⟨HO, HpRy13, Hry13⟩
  first | sl_exec | skip
  sl_unfold_run_names
  ihave Hout := (out_step' m c 13 g0 (congrArg k0_pay59 (load_yr m c 13))) $$ [Hout]
  · iexact Hout
  first | sl_exec | skip
  iapply (wp_waitRy m K c 14 0 _ (dst := yrC 14) (hcr := rfl)) $$ [$Hrec $HcRy14 $HO $HpRy14]
  · rw [MayWait_zero]; iempintro
  iintro ⟨HO, HpRy14, Hry14⟩
  first | sl_exec | skip
  sl_unfold_run_names
  ihave Hout := (out_step' m c 14 g0 (congrArg k0_pay60 (load_yr m c 14))) $$ [Hout]
  · iexact Hout
  first | sl_exec | skip
  iapply (wp_waitRy m K c 15 0 _ (dst := yrC 15) (hcr := rfl)) $$ [$Hrec $HcRy15 $HO $HpRy15]
  · rw [MayWait_zero]; iempintro
  iintro ⟨HO, HpRy15, Hry15⟩
  first | sl_exec | skip
  sl_unfold_run_names
  ihave Hout := (out_step' m c 15 g0 (congrArg k0_pay61 (load_yr m c 15))) $$ [Hout]
  · iexact Hout
  first | sl_exec | skip
  iapply (wp_waitSy m K c 0 0 _ (dst := ysC 0) (hcr := rfl)) $$ [$Hrec $HcSy0 $HO $HpSy0]
  · rw [MayWait_zero]; iempintro
  iintro ⟨HO, HpSy0, Hsy0⟩
  first | sl_exec | skip
  iapply (wp_waitSx m K c 0 0 _ (dst := psC 0) (hcr := rfl)) $$ [$Hrec $HcSx0 $HO $HpSx0]
  · rw [MayWait_zero]; iempintro
  iintro ⟨HO, HpSx0, Hsx0⟩
  first | sl_exec | skip
  iapply (wp_waitSy m K c 1 0 _ (dst := ysC 1) (hcr := rfl)) $$ [$Hrec $HcSy1 $HO $HpSy1]
  · rw [MayWait_zero]; iempintro
  iintro ⟨HO, HpSy1, Hsy1⟩
  first | sl_exec | skip
  iapply (wp_waitSx m K c 1 0 _ (dst := psC 1) (hcr := rfl)) $$ [$Hrec $HcSx1 $HO $HpSx1]
  · rw [MayWait_zero]; iempintro
  iintro ⟨HO, HpSx1, Hsx1⟩
  first | sl_exec | skip
  iapply (wp_waitSy m K c 2 0 _ (dst := ysC 2) (hcr := rfl)) $$ [$Hrec $HcSy2 $HO $HpSy2]
  · rw [MayWait_zero]; iempintro
  iintro ⟨HO, HpSy2, Hsy2⟩
  first | sl_exec | skip
  iapply (wp_waitSx m K c 2 0 _ (dst := psC 2) (hcr := rfl)) $$ [$Hrec $HcSx2 $HO $HpSx2]
  · rw [MayWait_zero]; iempintro
  iintro ⟨HO, HpSx2, Hsx2⟩
  first | sl_exec | skip
  iapply (wp_waitSy m K c 3 0 _ (dst := ysC 3) (hcr := rfl)) $$ [$Hrec $HcSy3 $HO $HpSy3]
  · rw [MayWait_zero]; iempintro
  iintro ⟨HO, HpSy3, Hsy3⟩
  first | sl_exec | skip
  iapply (wp_waitSx m K c 3 0 _ (dst := psC 3) (hcr := rfl)) $$ [$Hrec $HcSx3 $HO $HpSx3]
  · rw [MayWait_zero]; iempintro
  iintro ⟨HO, HpSx3, Hsx3⟩
  first | sl_exec | skip
  iapply (wp_waitSy m K c 4 0 _ (dst := ysC 4) (hcr := rfl)) $$ [$Hrec $HcSy4 $HO $HpSy4]
  · rw [MayWait_zero]; iempintro
  iintro ⟨HO, HpSy4, Hsy4⟩
  first | sl_exec | skip
  iapply (wp_waitSx m K c 4 0 _ (dst := psC 4) (hcr := rfl)) $$ [$Hrec $HcSx4 $HO $HpSx4]
  · rw [MayWait_zero]; iempintro
  iintro ⟨HO, HpSx4, Hsx4⟩
  first | sl_exec | skip
  iapply (wp_waitSy m K c 5 0 _ (dst := ysC 5) (hcr := rfl)) $$ [$Hrec $HcSy5 $HO $HpSy5]
  · rw [MayWait_zero]; iempintro
  iintro ⟨HO, HpSy5, Hsy5⟩
  first | sl_exec | skip
  iapply (wp_waitSx m K c 5 0 _ (dst := psC 5) (hcr := rfl)) $$ [$Hrec $HcSx5 $HO $HpSx5]
  · rw [MayWait_zero]; iempintro
  iintro ⟨HO, HpSx5, Hsx5⟩
  first | sl_exec | skip
  iapply (wp_waitSy m K c 6 0 _ (dst := ysC 6) (hcr := rfl)) $$ [$Hrec $HcSy6 $HO $HpSy6]
  · rw [MayWait_zero]; iempintro
  iintro ⟨HO, HpSy6, Hsy6⟩
  first | sl_exec | skip
  iapply (wp_waitSx m K c 6 0 _ (dst := psC 6) (hcr := rfl)) $$ [$Hrec $HcSx6 $HO $HpSx6]
  · rw [MayWait_zero]; iempintro
  iintro ⟨HO, HpSx6, Hsx6⟩
  first | sl_exec | skip
  iapply (wp_waitSy m K c 7 0 _ (dst := ysC 7) (hcr := rfl)) $$ [$Hrec $HcSy7 $HO $HpSy7]
  · rw [MayWait_zero]; iempintro
  iintro ⟨HO, HpSy7, Hsy7⟩
  first | sl_exec | skip
  iapply (wp_waitSx m K c 7 0 _ (dst := psC 7) (hcr := rfl)) $$ [$Hrec $HcSx7 $HO $HpSx7]
  · rw [MayWait_zero]; iempintro
  iintro ⟨HO, HpSx7, Hsx7⟩
  first | sl_exec | skip
  iapply (wp_waitSy m K c 8 0 _ (dst := ysC 8) (hcr := rfl)) $$ [$Hrec $HcSy8 $HO $HpSy8]
  · rw [MayWait_zero]; iempintro
  iintro ⟨HO, HpSy8, Hsy8⟩
  first | sl_exec | skip
  iapply (wp_waitSx m K c 8 0 _ (dst := psC 8) (hcr := rfl)) $$ [$Hrec $HcSx8 $HO $HpSx8]
  · rw [MayWait_zero]; iempintro
  iintro ⟨HO, HpSx8, Hsx8⟩
  first | sl_exec | skip
  iapply (wp_waitSy m K c 9 0 _ (dst := ysC 9) (hcr := rfl)) $$ [$Hrec $HcSy9 $HO $HpSy9]
  · rw [MayWait_zero]; iempintro
  iintro ⟨HO, HpSy9, Hsy9⟩
  first | sl_exec | skip
  iapply (wp_waitSx m K c 9 0 _ (dst := psC 9) (hcr := rfl)) $$ [$Hrec $HcSx9 $HO $HpSx9]
  · rw [MayWait_zero]; iempintro
  iintro ⟨HO, HpSx9, Hsx9⟩
  first | sl_exec | skip
  iapply (wp_waitSy m K c 10 0 _ (dst := ysC 10) (hcr := rfl)) $$ [$Hrec $HcSy10 $HO $HpSy10]
  · rw [MayWait_zero]; iempintro
  iintro ⟨HO, HpSy10, Hsy10⟩
  first | sl_exec | skip
  iapply (wp_waitSx m K c 10 0 _ (dst := psC 10) (hcr := rfl)) $$ [$Hrec $HcSx10 $HO $HpSx10]
  · rw [MayWait_zero]; iempintro
  iintro ⟨HO, HpSx10, Hsx10⟩
  first | sl_exec | skip
  iapply (wp_waitSy m K c 11 0 _ (dst := ysC 11) (hcr := rfl)) $$ [$Hrec $HcSy11 $HO $HpSy11]
  · rw [MayWait_zero]; iempintro
  iintro ⟨HO, HpSy11, Hsy11⟩
  first | sl_exec | skip
  iapply (wp_waitSx m K c 11 0 _ (dst := psC 11) (hcr := rfl)) $$ [$Hrec $HcSx11 $HO $HpSx11]
  · rw [MayWait_zero]; iempintro
  iintro ⟨HO, HpSx11, Hsx11⟩
  first | sl_exec | skip
  iapply (wp_waitSy m K c 12 0 _ (dst := ysC 12) (hcr := rfl)) $$ [$Hrec $HcSy12 $HO $HpSy12]
  · rw [MayWait_zero]; iempintro
  iintro ⟨HO, HpSy12, Hsy12⟩
  first | sl_exec | skip
  iapply (wp_waitSx m K c 12 0 _ (dst := psC 12) (hcr := rfl)) $$ [$Hrec $HcSx12 $HO $HpSx12]
  · rw [MayWait_zero]; iempintro
  iintro ⟨HO, HpSx12, Hsx12⟩
  first | sl_exec | skip
  iapply (wp_waitSy m K c 13 0 _ (dst := ysC 13) (hcr := rfl)) $$ [$Hrec $HcSy13 $HO $HpSy13]
  · rw [MayWait_zero]; iempintro
  iintro ⟨HO, HpSy13, Hsy13⟩
  first | sl_exec | skip
  iapply (wp_waitSx m K c 13 0 _ (dst := psC 13) (hcr := rfl)) $$ [$Hrec $HcSx13 $HO $HpSx13]
  · rw [MayWait_zero]; iempintro
  iintro ⟨HO, HpSx13, Hsx13⟩
  first | sl_exec | skip
  iapply (wp_waitSy m K c 14 0 _ (dst := ysC 14) (hcr := rfl)) $$ [$Hrec $HcSy14 $HO $HpSy14]
  · rw [MayWait_zero]; iempintro
  iintro ⟨HO, HpSy14, Hsy14⟩
  first | sl_exec | skip
  iapply (wp_waitSx m K c 14 0 _ (dst := psC 14) (hcr := rfl)) $$ [$Hrec $HcSx14 $HO $HpSx14]
  · rw [MayWait_zero]; iempintro
  iintro ⟨HO, HpSx14, Hsx14⟩
  first | sl_exec | skip
  iapply (wp_waitSy m K c 15 0 _ (dst := ysC 15) (hcr := rfl)) $$ [$Hrec $HcSy15 $HO $HpSy15]
  · rw [MayWait_zero]; iempintro
  iintro ⟨HO, HpSy15, Hsy15⟩
  first | sl_exec | skip
  iapply (wp_waitSx m K c 15 0 _ (dst := psC 15) (hcr := rfl)) $$ [$Hrec $HcSx15 $HO $HpSx15]
  · rw [MayWait_zero]; iempintro
  iintro ⟨HO, HpSx15, Hsx15⟩
  first | sl_exec | skip
  ihave Hout := (Entails.of_eq (congrArg (fun f => (outM.view.loc (c : Thread nD τ) ↦[outM.view.set]{fullShare} f : sProp 𝕄)) (outSt_full m c g0))) $$ [Hout]
  · iexact Hout
  ihave H3f := (Entails.of_eq (show ((pmM.view.loc (c : Thread nD τ) ↦[pmM.view.set]{fullShare} Vals.PM m c : sProp 𝕄))
      = (((c : Thread nD τ).loc cc0_scratch3) ↦{fullShare} Vals.PM m c) by rw [View.set_whole])) $$ H3
  imod (body_end_open m K c) $$ [$Hrec HpXv HpDy0 HpDy1 HpDy2 HpDy3 HpSx0 HpSx1 HpSx2 HpSx3 HpSx4 HpSx5 HpSx6 HpSx7 HpSx8 HpSx9 HpSx10 HpSx11 HpSx12 HpSx13 HpSx14 HpSx15 HpRx0 HpRx1 HpRx2 HpRx3 HpRx4 HpRx5 HpRx6 HpRx7 HpRx8 HpRx9 HpRx10 HpRx11 HpRx12 HpRx13 HpRx14 HpRx15 HpSy0 HpSy1 HpSy2 HpSy3 HpSy4 HpSy5 HpSy6 HpSy7 HpSy8 HpSy9 HpSy10 HpSy11 HpSy12 HpSy13 HpSy14 HpSy15 HpRy0 HpRy1 HpRy2 HpRy3 HpRy4 HpRy5 HpRy6 HpRy7 HpRy8 HpRy9 HpRy10 HpRy11 HpRy12 HpRy13 HpRy14 HpRy15 H0 HaX Hd0 Hd1 Hd2 Hd3 HD0 HD1 HD2 HD3 HDr Hsx0 Hsx1 Hsx2 Hsx3 Hsx4 Hsx5 Hsx6 Hsx7 Hsx8 Hsx9 Hsx10 Hsx11 Hsx12 Hsx13 Hsx14 Hsx15 H3f Hrx0 Hrx1 Hrx2 Hrx3 Hrx4 Hrx5 Hrx6 Hrx7 Hrx8 Hrx9 Hrx10 Hrx11 Hrx12 Hrx13 Hrx14 Hrx15 Hsy0 Hsy1 Hsy2 Hsy3 Hsy4 Hsy5 Hsy6 Hsy7 Hsy8 Hsy9 Hsy10 Hsy11 Hsy12 Hsy13 Hsy14 Hsy15 Hry0 Hry1 Hry2 Hry3 Hry4 Hry5 Hry6 Hry7 Hry8 Hry9 Hry10 Hry11 Hry12 Hry13 Hry14 Hry15] with HΦ
  · iframe
  first | sl_exec | skip
  first | rw [wp_ret] | (simp only [Prog.pure_eq_ret]; rw [wp_ret])
  imodintro
  iapply Hk
  iapply (body_post m ρ c _)
  iframe

end Cert.KernelIdeal.Sched
end
-- ==== Proof.KernelIdealH.BodyGlue.lean ====
import proofs.«901045_g7700000000001046_dist_rsdw_v7x_xy2x2_x_m1024_d1024_f4096_f32_1_alg».proof.Proof.KernelIdealH.Inv

noncomputable section

namespace Cert.KernelIdeal.Sched

open Cert.KernelIdeal Cert.KernelIdeal.Gen Cert.KernelIdeal.Mesh

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
def bodyPre' (c : Dev nD) : sProp 𝕄 :=
  iprop(Φ₀ m c ∗ (dats m ρ 0 c).owesAt () t₀.castSucc
    ∗ (∃ d, stg c cc0_stg0_0 ((dats m ρ 0 c).before (0 : Fin 1) t₀ d)))

set_option maxRecDepth 16384 in
theorem body_obligation_of
    (hbody : ∀ (K : Dev nD × Fin 70 → ℕ) (c : Dev nD) (Kt : PUnit → sProp 𝕄),
      iprop(bodyPre m ρ K c ∗ (bodyPost m ρ c -∗ Kt ⟨⟩))
        ⊢ wp frame (wpE (defs₀ (F := F)) 𝒱₀ (c : Thread nD τ) none) Set.univ
            (cc0_body (F := F) (Memref.whole main_arg0) (Memref.isWhole_whole _) (Memref.whole main_arg1) (Memref.isWhole_whole _) (win0_0.stage (cfg0.slots t₀ 0)) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12) Kt)
    (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ (c : Thread nD τ) none) Set.univ
    (cc0_body (F := F) (Memref.whole main_arg0) (Memref.isWhole_whole _) (Memref.whole main_arg1) (Memref.isWhole_whole _) (win0_0.stage (cfg0.slots t₀ 0)) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12)
    (fun _ => bodyPost m ρ c)
  unfold bodyPre' Φ₀ start
  iintro ⟨⟨⟨⟨%K, Hg⟩, Hcr, Hlv, Harg⟩, Hscr⟩, Ho, Hx⟩
  iapply (hbody K c fun _ => bodyPost m ρ c)
  unfold bodyPre
  isplitr []
  · isplitl [Hg Hcr Hlv Harg Hscr]
    · isplitl [Hg]; · iexact Hg
      isplitl [Hcr]; · iexact Hcr
      isplitl [Hlv]; · iexact Hlv
      isplitl [Harg]; · iexact Harg
      iexact Hscr
    isplitl [Ho]; · iexact Ho
    iexact Hx
  · iintro H; iexact H

end Cert.KernelIdeal.Sched

end
-- ==== Proof.KernelIdealH.BodyOb.lean ====
import proofs.«901045_g7700000000001046_dist_rsdw_v7x_xy2x2_x_m1024_d1024_f4096_f32_1_alg».proof.Proof.KernelIdealH.Body
import proofs.«901045_g7700000000001046_dist_rsdw_v7x_xy2x2_x_m1024_d1024_f4096_f32_1_alg».proof.Proof.KernelIdealH.BodyGlue

noncomputable section

namespace Cert.KernelIdeal.Sched

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 16384 in
theorem body_obligation (c : Dev nD) : BodyObligation (dats (F := F) m ρ 0 c) (defs₀ (F := F)) 𝒱₀ () Set.univ :=
  body_obligation_of m ρ (sound_body m ρ) c

end Cert.KernelIdeal.Sched

end
-- ==== Proof.KernelIdealH.LaunchCells.lean ====
import proofs.«901045_g7700000000001046_dist_rsdw_v7x_xy2x2_x_m1024_d1024_f4096_f32_1_alg».proof.Proof.KernelIdealH.Inv
import Mathlib.Tactic.FinCases

noncomputable section

namespace Cert.KernelIdeal.Sched

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Launch

abbrev osem : Fin 69 → SemLoc sig := fun i => .dma ⟨i.val + 1, by have := i.isLt; show _ < 70; omega⟩

theorem osem_injective : Function.Injective osem := fun a b h => by
  have h1 : a.val + 1 = b.val + 1 := congrArg Fin.val (SemLoc.dma.inj h)
  exact Fin.ext (by omega)

theorem ownSemFacts : Pipeline.OwnSemFacts cfg0.spec osem where
  isScoped := by decide
  inj := osem_injective
  disj := by decide

theorem share_eq (c : Dev nD) (w : Fin cfg0.W) : (dats m ρ 0 c).share w = fullShare := by unfold Dat.share; split <;> rfl

theorem kcell_injective : Function.Injective (kcell : Dev nD × Fin 70 → GSem nD τ sig) := by
  rintro ⟨c, k⟩ ⟨c', k'⟩ h
  unfold kcell at h
  dsimp only at h
  by_cases hk : k.val = 0 <;> by_cases hk' : k'.val = 0
  · rw [if_pos hk, if_pos hk'] at h
    have h1 : c = c' := congrArg (fun g : GSem nD τ sig => g.1.1) h
    subst h1
    exact congrArg (Prod.mk c) (Fin.ext (hk.trans hk'.symm))
  · rw [if_pos hk, if_neg hk'] at h
    exact absurd (congrArg Prod.snd h) (fun h' => by cases h')
  · rw [if_neg hk, if_pos hk'] at h
    exact absurd (congrArg Prod.snd h) (fun h' => by cases h')
  · rw [if_neg hk, if_neg hk'] at h
    have h1 : c = c' := congrArg (fun g : GSem nD τ sig => g.1.1) h
    have h2 : k = k' := SemLoc.dma.inj (congrArg Prod.snd h)
    subst h1; subst h2; rfl

def allCells : Finset (GSem nD τ sig) := Finset.univ.map ⟨kcell, kcell_injective⟩

theorem kcell_zero (c : Dev nD) : kcell (c, (0 : Fin 70)) = barCell c := if_pos rfl

theorem kcell_succ (c : Dev nD) (i : Fin 69) : kcell (c, i.succ) = ((c : Thread nD τ), osem i) := by
  unfold kcell
  rw [if_neg (by show i.val + 1 ≠ 0; omega)]
  rfl

abbrev CopyRole : Type := Unit ⊕ Fin 4 ⊕ Fin 16 ⊕ Fin 16 ⊕ Fin 16 ⊕ Fin 16

def roleSem : CopyRole → DmaSem sig
  | .inl _ => xvS
  | .inr (.inl b) => dyS b
  | .inr (.inr (.inl j)) => sxS j
  | .inr (.inr (.inr (.inl j))) => rxS j
  | .inr (.inr (.inr (.inr (.inl j)))) => syS j
  | .inr (.inr (.inr (.inr (.inr j)))) => ryS j

def roleIdx : CopyRole → ℕ
  | .inl _ => 1
  | .inr (.inl b) => 2 + b.val
  | .inr (.inr (.inl j)) => 6 + j.val
  | .inr (.inr (.inr (.inl j))) => 22 + j.val
  | .inr (.inr (.inr (.inr (.inl j)))) => 38 + j.val
  | .inr (.inr (.inr (.inr (.inr j)))) => 54 + j.val

theorem roleSem_val (a : CopyRole) : (roleSem a).val = roleIdx a := by
  rcases a with _ | b | j | j | j | j <;> rfl

theorem roleIdx_injective : Function.Injective roleIdx := by
  intro a a' h
  rcases a with u | b | j | j | j | j <;> rcases a' with u' | b' | j' | j' | j' | j' <;> simp only [roleIdx] at h
  all_goals first
    | rfl
    | (exfalso; omega)
    | (have e := Fin.ext (Nat.add_left_cancel h); subst e; rfl)

theorem roleSem_injective : Function.Injective roleSem := fun a a' h =>
  roleIdx_injective (by rw [← roleSem_val, ← roleSem_val, h])

abbrev TokIx : Type := Bool ⊕ CopyRole

def tokOf (ci : Dev nD × TokIx) : GSem nD τ sig × ℕ × Bool :=
  match ci.2 with
  | .inl d => (barCell ci.1, 0, d)
  | .inr a => (((ci.1 : Thread nD τ), .dma (roleSem a)), 0, false)

theorem tokOf_injective : Function.Injective (tokOf : Dev nD × TokIx → GSem nD τ sig × ℕ × Bool) := by
  rintro ⟨c, i⟩ ⟨c', i'⟩ h
  have h1 : c = c' := by
    have := congrArg (fun x : GSem nD τ sig × ℕ × Bool => x.1.1.1) h
    rcases i with d | a <;> rcases i' with d' | a' <;> exact this
  subst h1
  rcases i with d | a <;> rcases i' with d' | a'
  · have hd : d = d' := congrArg (fun x : GSem nD τ sig × ℕ × Bool => x.2.2) h
    subst hd; rfl
  · exact absurd (congrArg (fun x : GSem nD τ sig × ℕ × Bool => x.1.2) h) (fun h' => by cases h')
  · exact absurd (congrArg (fun x : GSem nD τ sig × ℕ × Bool => x.1.2) h) (fun h' => by cases h')
  · have ha : a = a' := roleSem_injective (SemLoc.dma.inj (congrArg (fun x : GSem nD τ sig × ℕ × Bool => x.1.2) h))
    subst ha; rfl

def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

def toks (c : Dev nD) : sProp 𝕄 :=
  iprop(dutyTok ER (barCell c) 0 false ∗ dutyTok ER (barCell c) 0 true
    ∗ dutyTok ER (xvCell c) 0 false ∗ (bigSep Finset.univ fun b : Fin 4 => dutyTok ER (dyCell c b) 0 false)
    ∗ (bigSep Finset.univ fun j : Fin 16 => dutyTok ER (sxCell c j) 0 false)
    ∗ (bigSep Finset.univ fun j : Fin 16 => dutyTok ER (rxCell c j) 0 false)
    ∗ (bigSep Finset.univ fun j : Fin 16 => dutyTok ER (syCell c j) 0 false)
    ∗ (bigSep Finset.univ fun j : Fin 16 => dutyTok ER (ryCell c j) 0 false))

def G (c : Dev nD) : sProp 𝕄 :=
  iprop((bigSep Finset.univ fun k : Fin 70 => roundState ER (sched m) (kcell (c, k)) 0)
    ∗ (bigSep Finset.univ fun k : Fin 70 => iprop(atPos ER (kcell (c, k)) 0 ∅ 0 ∗ reached ER (kcell (c, k)) 0)) ∗ toks c)

def G' (c : Dev nD) : sProp 𝕄 := iprop(∃ K, ghost m K c)

omit [FloatOps F] in
theorem toks_eq (c : Dev nD) :
    (bigSep Finset.univ fun i : TokIx => (dutyTok ER (tokOf (c, i)).1 (tokOf (c, i)).2.1 (tokOf (c, i)).2.2 : sProp 𝕄)) = toks c := by
  unfold toks
  rw [bigSep_univ_sum, bigSep_univ_eq_bigSepL [false, true] (by decide) (by decide), bigSepL_cons_cons, bigSepL_singleton,
    bigSep_univ_sum, bigSep_univ_of_subsingleton (), bigSep_univ_sum, bigSep_univ_sum, bigSep_univ_sum, bigSep_univ_sum]
  exact BI.Entails.antisymm BI.sep_assoc BI.sep_assoc'

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 70 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

end Launch

end Cert.KernelIdeal.Sched

end
-- ==== Proof.KernelIdealH.LaunchAlloc.lean ====
import proofs.«901045_g7700000000001046_dist_rsdw_v7x_xy2x2_x_m1024_d1024_f4096_f32_1_alg».proof.Proof.KernelIdealH.LaunchCells
import proofs.«901045_g7700000000001046_dist_rsdw_v7x_xy2x2_x_m1024_d1024_f4096_f32_1_alg».proof.Proof.KernelIdealH.SchedT

noncomputable section

namespace Cert.KernelIdeal.Sched

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Launch

omit [FloatOps F] in
theorem bigSep_fin70 (Φ : Fin 70 → sProp 𝕄) :
    bigSep Finset.univ Φ = iprop(Φ 0 ∗ bigSep Finset.univ fun i : Fin 69 => Φ i.succ) := by
  have h0 : (0 : Fin 70) ∉ (Finset.univ : Finset (Fin 69)).map ⟨Fin.succ, Fin.succ_injective 69⟩ := fun h => by
    obtain ⟨i, -, hi⟩ := Finset.mem_map.mp h
    exact Fin.succ_ne_zero i hi
  have hu : (Finset.univ : Finset (Fin 70)) = insert 0 ((Finset.univ : Finset (Fin 69)).map ⟨Fin.succ, Fin.succ_injective 69⟩) := by
    rw [← Finset.cons_eq_insert _ _ h0]; exact Fin.univ_succ 69
  rw [hu, bigSep_insert h0, bigSep_map]
  rfl

omit [FloatOps F] in
theorem cells_split (c : Dev nD) (Φ : GSem nD τ sig → sProp 𝕄) :
    (bigSep Finset.univ fun k : Fin 70 => Φ (kcell (c, k)))
      = iprop(Φ (barCell c) ∗ bigSep Finset.univ fun i : Fin 69 => Φ ((c : Thread nD τ), osem i)) := by
  rw [bigSep_fin70, kcell_zero]
  exact congrArg _ (bigSep_congr fun i _ => by rw [kcell_succ])

omit [FloatOps F] in
theorem filter_ne_zero : (Finset.univ : Finset (Fin 70)).filter (fun k => k.val ≠ 0)
    = (Finset.univ : Finset (Fin 69)).map ⟨Fin.succ, Fin.succ_injective 69⟩ := by
  ext k
  rw [Finset.mem_filter, Finset.mem_map]
  constructor
  · rintro ⟨-, hk⟩
    have hk0 : k ≠ 0 := fun h => hk (congrArg Fin.val h)
    exact ⟨k.pred hk0, Finset.mem_univ _, Fin.succ_pred k hk0⟩
  · rintro ⟨i, -, rfl⟩
    exact ⟨Finset.mem_univ _, Nat.succ_ne_zero _⟩

omit [FloatOps F] in
theorem ownSems0_eq (c : Dev nD) :
    (bigSep ((Finset.univ : Finset (Fin 70)).filter fun k => k.val ≠ 0) fun k => (semVal (kcell (c, k)) 0 : sProp 𝕄))
      = Pipeline.ownSems0 (Ix := Unit) (Name := ℕ) (U := UU) (Lvl := ℕ) (Val := Elt F) (τ := τ) osem c := by
  rw [filter_ne_zero, bigSep_map]
  unfold Pipeline.ownSems0
  exact bigSep_congr fun i _ => by
    show (semVal (kcell (c, i.succ)) 0 : sProp 𝕄) = _
    rw [kcell_succ]

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 70 => semVal (kcell (c, k)) 0 : sProp 𝕄) := by
  rw [unscopedSems0_eq, cells_split c (fun g => (semVal g 0 : sProp 𝕄))]
  unfold Pipeline.ownSems0
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 70 => iprop(∃ κ : ℕ, cellInv ER (sched m) κ (kcell (c, k))))
          ∗ (bigSep Finset.univ fun k : Fin 70 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 70 => semVal (kcell (c, k)) 0) ∗ bigSep Finset.univ fun k : Fin 70 => roundState ER (sched m) (kcell (c, k)) 0)
      ⊢ (|={Set.univ}=> bigSep Finset.univ fun k : Fin 70 => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def xnE : Dev nD ≃ Dev nD := ⟨xn, xn, xn_xn, xn_xn⟩
def ynE : Dev nD ≃ Dev nD := ⟨yn, yn, yn_yn, yn_yn⟩

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep',
    bigSep_sep', bigSep_sep', bigSep_sep', bigSep_sep', bigSep_sep', bigSep_sep', bigSep_sep',
    bigSep_univ_equiv xnE (fun c : Dev nD => (dutyTok ER (barCell c) 0 false : sProp 𝕄)),
    bigSep_univ_equiv ynE (fun c : Dev nD => (dutyTok ER (barCell c) 0 true : sProp 𝕄)),
    bigSep_univ_equiv xnE (fun c : Dev nD => (bigSep Finset.univ fun j : Fin 16 => dutyTok ER (rxCell c j) 0 false : sProp 𝕄)),
    bigSep_univ_equiv ynE (fun c : Dev nD => (bigSep Finset.univ fun j : Fin 16 => dutyTok ER (ryCell c j) 0 false : sProp 𝕄))]
  iintro ⟨H1, H2, H3, H4, H5, H6, H7, H8⟩
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem ghost_intro (K : Dev nD × Fin 70 → ℕ) (c : Dev nD) : iprop(records m K ∗ linear c) ⊢ G' m c := by
  unfold G' ghost
  iintro H
  iexists K
  iexact H

theorem regroup :
    (bigSep Finset.univ fun c : Dev nD => iprop((bigSep Finset.univ fun k : Fin 70 => iprop(∃ κ : ℕ, cellInv ER (sched m) κ (kcell (c, k))))
          ∗ (bigSep Finset.univ fun k : Fin 70 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 70 => iprop(∃ κ : ℕ, cellInv ER (sched m) κ (kcell ck))),
    bigSep_congr (s := Finset.univ) (fun (c : Dev nD) _ => bigSep_sep' Finset.univ (fun k : Fin 70 => (atPos ER (kcell (c, k)) 0 ∅ 0 : sProp 𝕄)) (fun k => reached ER (kcell (c, k)) 0)),
    bigSep_sep', ← bigSep_univ_prod (fun ck : Dev nD × Fin 70 => (reached ER (kcell ck) 0 : sProp 𝕄))]
  iintro ⟨HI, ⟨Hat, #HR⟩, Htok⟩
  ihave HK := (BI.bigSep_exists_pi Finset.univ (fun (ck : Dev nD × Fin 70) (κ : ℕ) => (cellInv ER (sched m) κ (kcell ck) : sProp 𝕄))) $$ HI
  icases HK with ⟨%K, #HI⟩
  ihave Htk := (toks_around (F := F)) $$ Htok
  iapply (BI.bigSep_with_persistent (R := records m K) (Φ := linear) (Ψ := G' m) fun c _ => ghost_intro m K c)
  isplitr
  · unfold records; isplitl; · iexact HI
    iexact HR
  · iapply ((Entails.of_eq (bigSep_sep' Finset.univ (fun c : Dev nD => bigSep Finset.univ fun k : Fin 70 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Launch

end Cert.KernelIdeal.Sched

end
-- ==== Proof.KernelIdealH.LaunchCred.lean ====
import proofs.«901045_g7700000000001046_dist_rsdw_v7x_xy2x2_x_m1024_d1024_f4096_f32_1_alg».proof.Proof.KernelIdealH.Inv

noncomputable section

namespace Cert.KernelIdeal.Sched

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Launch

omit [FloatOps F] in
theorem O₀_pos {c : Dev nD} {g : GSem nD τ sig} {u : Unit} (h : 0 < O₀ c g u) :
    g = barCell (xn c) ∨ g = barCell (yn c) ∨ (∃ j, g = rxCell (xn c) j) ∨ ∃ j, g = ryCell (yn c) j := by
  unfold O₀ at h
  rcases Pipeline.add_pos_cases h with h | h
  · unfold O₁ at h
    rcases Pipeline.add_pos_cases h with h | h
    · unfold O₂ at h
      rcases Pipeline.add_pos_cases h with h | h
      · unfold oweY at h
        obtain ⟨j, -, hj⟩ := Pipeline.sum_pos_exists h
        exact Or.inr (Or.inr (Or.inr ⟨j, (Pipeline.tallyAt_pos hj).1⟩))
      · unfold oweX at h
        obtain ⟨j, -, hj⟩ := Pipeline.sum_pos_exists h
        exact Or.inr (Or.inr (Or.inl ⟨j, (Pipeline.tallyAt_pos hj).1⟩))
    · exact Or.inr (Or.inl (Pipeline.tallyAt_pos h).1)
  · exact Or.inl (Pipeline.tallyAt_pos h).1

omit [FloatOps F] in
theorem O₀_level {c : Dev nD} {g : GSem nD τ sig} {u : Unit} (h : 0 < O₀ c g u) : u ∈ L g ∧ 0 < lv g u := by
  rcases O₀_pos h with rfl | rfl | ⟨j, rfl⟩ | ⟨j, rfl⟩
  · exact ⟨by rw [L_tc]; exact Finset.mem_singleton_self _, Nat.one_pos⟩
  · exact ⟨by rw [L_tc]; exact Finset.mem_singleton_self _, Nat.one_pos⟩
  · refine ⟨by rw [L_tc]; exact Finset.mem_singleton_self _, ?_⟩
    have hj : j.val < 16 := j.isLt
    show 0 < if 22 ≤ (rxS j).val ∧ (rxS j).val < 38 then 2 else if 54 ≤ (rxS j).val then 3 else 0
    rw [if_pos (by show 22 ≤ 22 + j.val ∧ 22 + j.val < 38; omega)]; decide
  · refine ⟨by rw [L_tc]; exact Finset.mem_singleton_self _, ?_⟩
    have hj : j.val < 16 := j.isLt
    show 0 < if 22 ≤ (ryS j).val ∧ (ryS j).val < 38 then 2 else if 54 ≤ (ryS j).val then 3 else 0
    rw [if_neg (by show ¬ (22 ≤ 54 + j.val ∧ 54 + j.val < 38); omega), if_pos (by show 54 ≤ 54 + j.val; omega)]; decide

theorem waits (c : Dev nD) : (levAts L lv : sProp 𝕄) ⊢ Pipeline.cellsWaits cfgs (dats m ρ) () 0 c :=
  Pipeline.cellsWaits_intro cfgs (dats m ρ) () 0 c fun w s t => by
    have hO : (dats m ρ 0 c).owed t = O₀ c ∨ (dats m ρ 0 c).owed t = 0 := by
      rcases t with ⟨_ | _, ht⟩
      · exact Or.inl rfl
      · exact Or.inr rfl
    rcases hO with hO | hO
    · rw [hO]
      refine Pipeline.mayWait_of_levAts (by rw [L_tc]; exact Finset.mem_singleton_self _) fun g i hg => ?_
      refine ⟨(O₀_level hg).1, lt_of_eq_of_lt ?_ (O₀_level hg).2⟩
      fin_cases w; fin_cases s; rfl
    · rw [hO, MayWait_zero]; iintro -; iempintro

omit [FloatOps F] in
theorem filter_all (n : ℕ) (hn : n = 0) : (Finset.univ : Finset (Fin 16)).filter (fun j => n ≤ j.val) = Finset.univ := by
  subst hn; exact Finset.filter_true_of_mem fun j _ => Nat.zero_le _

omit [FloatOps F] in
theorem creds_intro (c : Dev nD) : (Pipeline.launchCred O₀ c : sProp 𝕄) ⊢ creds c := by
  have e0 : (Pipeline.launchCred O₀ c : sProp 𝕄)
      = iprop(Pipeline.launchCred O₁ c ∗ Pipeline.launchCred (fun d => tallyAt (barCell (xn d)) () 1) c) :=
    Pipeline.launchCred_add O₁ (fun d => tallyAt (barCell (xn d)) () 1) c
  have e1 : (Pipeline.launchCred O₁ c : sProp 𝕄)
      = iprop(Pipeline.launchCred O₂ c ∗ Pipeline.launchCred (fun d => tallyAt (barCell (yn d)) () 1) c) :=
    Pipeline.launchCred_add O₂ (fun d => tallyAt (barCell (yn d)) () 1) c
  have e2 : (Pipeline.launchCred O₂ c : sProp 𝕄)
      = iprop(Pipeline.launchCred (fun d => oweY d 0) c ∗ Pipeline.launchCred (fun d => oweX d 0) c) :=
    Pipeline.launchCred_add (fun d => oweY d 0) (fun d => oweX d 0) c
  have eX : (Pipeline.launchCred (fun d => oweX d 0) c : sProp 𝕄)
      = bigSep Finset.univ fun j : Fin 16 => Pipeline.launchCred (fun d => tallyAt (rxCell (xn d) j) () N) c := by
    have := Pipeline.launchCred_sum (Val := Elt F) (Name := ℕ) (U := UU) (Lvl := ℕ) ((Finset.univ : Finset (Fin 16)).filter (fun j => 0 ≤ j.val))
      (fun j d => (tallyAt (rxCell (xn d) j) () N : CellTallies nD τ sig Unit)) c
    rw [filter_all 0 rfl] at this
    exact this
  have eY : (Pipeline.launchCred (fun d => oweY d 0) c : sProp 𝕄)
      = bigSep Finset.univ fun j : Fin 16 => Pipeline.launchCred (fun d => tallyAt (ryCell (yn d) j) () N) c := by
    have := Pipeline.launchCred_sum (Val := Elt F) (Name := ℕ) (U := UU) (Lvl := ℕ) ((Finset.univ : Finset (Fin 16)).filter (fun j => 0 ≤ j.val))
      (fun j d => (tallyAt (ryCell (yn d) j) () N : CellTallies nD τ sig Unit)) c
    rw [filter_all 0 rfl] at this
    exact this
  have hbx : (Pipeline.launchCred (fun d => tallyAt (barCell (xn d)) () 1) c : sProp 𝕄) ⊢ cred (tallyAt (barCell c) () 1) :=
    Pipeline.launchCred_tallyAt (.reg barS) xn xn xn_xn xn_xn () 1 c
  have hby : (Pipeline.launchCred (fun d => tallyAt (barCell (yn d)) () 1) c : sProp 𝕄) ⊢ cred (tallyAt (barCell c) () 1) :=
    Pipeline.launchCred_tallyAt (.reg barS) yn yn yn_yn yn_yn () 1 c
  have hrx (j : Fin 16) : (Pipeline.launchCred (fun d => tallyAt (rxCell (xn d) j) () N) c : sProp 𝕄) ⊢ cred (tallyAt (rxCell c j) () N) :=
    Pipeline.launchCred_tallyAt (.dma (rxS j)) xn xn xn_xn xn_xn () N c
  have hry (j : Fin 16) : (Pipeline.launchCred (fun d => tallyAt (ryCell (yn d) j) () N) c : sProp 𝕄) ⊢ cred (tallyAt (ryCell c j) () N) :=
    Pipeline.launchCred_tallyAt (.dma (ryS j)) yn yn yn_yn yn_yn () N c
  have hX : (bigSep Finset.univ fun j : Fin 16 => Pipeline.launchCred (fun d => tallyAt (rxCell (xn d) j) () N) c : sProp 𝕄)
      ⊢ bigSep Finset.univ fun j : Fin 16 => cred (tallyAt (rxCell c j) () N) := bigSep_mono fun j _ => hrx j
  have hY : (bigSep Finset.univ fun j : Fin 16 => Pipeline.launchCred (fun d => tallyAt (ryCell (yn d) j) () N) c : sProp 𝕄)
      ⊢ bigSep Finset.univ fun j : Fin 16 => cred (tallyAt (ryCell c j) () N) := bigSep_mono fun j _ => hry j
  rw [e0, e1, e2, eX, eY]
  unfold creds
  iintro ⟨⟨⟨HY, HX⟩, Hby⟩, Hbx⟩
  ihave Hbx' := hbx $$ Hbx
  ihave Hby' := hby $$ Hby
  isplitl [Hbx' Hby']
  · rw [← tallyAt_add (barCell c) () 1 1]
    iapply (cred_add _ _).2
    isplitl [Hbx'] <;> iassumption
  isplitl [HX]
  · iapply hX; iexact HX
  · iapply hY; iexact HY

end Launch

end Cert.KernelIdeal.Sched

end
-- ==== Proof.KernelIdealH.Launch.lean ====
import proofs.«901045_g7700000000001046_dist_rsdw_v7x_xy2x2_x_m1024_d1024_f4096_f32_1_alg».proof.Proof.KernelIdealH.BodyOb
import proofs.«901045_g7700000000001046_dist_rsdw_v7x_xy2x2_x_m1024_d1024_f4096_f32_1_alg».proof.Proof.KernelIdealH.LaunchAlloc
import proofs.«901045_g7700000000001046_dist_rsdw_v7x_xy2x2_x_m1024_d1024_f4096_f32_1_alg».proof.Proof.KernelIdealH.LaunchCred

noncomputable section

namespace Cert.KernelIdeal.Sched

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Launch

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Hd⟩, Hlev, Hcr, -, HG⟩
  ihave Hc := (creds_intro (F := F) c) $$ Hcr
  imodintro
  unfold start G' argPts
  isplitl
  · isplitl [HG]; · iexact HG
    isplitl [Hc]; · iexact Hc
    isplitl [Hlev]; · iexact Hlev
    isplitl [Hx]; · iexact Hx
    iexact Hd
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratches scr
  iintro ⟨Hs, -, Hr⟩
  isplitl [Hs]; · iexact Hs
  iexact Hr

theorem phi1_exit (c : Dev nD) :
    (dats m ρ 0 c).Φ (Fin.last cfg0.N) ⊢ iprop(argPts m c ∗ Pipeline.ownSems0 osem c ∗ Pipeline.scopedRest cfg0.spec c) := by
  rw [show (dats m ρ 0 c).Φ (Fin.last cfg0.N) = Φ₁ m c from rfl, scopedRest0_eq, ← ownSems0_eq]
  unfold Φ₁ scratches scr
  iintro ⟨Ha, Hs, Hz⟩
  isplitl [Ha]; · iexact Ha
  isplitl [Hz]; · iexact Hz
  iexact Hs

theorem finalA_out (c : Dev nD) : (dats m ρ 0 c).arrAt (0 : Fin 1) cfg0.N = Vals.OUT m c := by
  rw [show cfg0.N = (t₀ : Fin cfg0.N).val + 1 from rfl, (dats m ρ 0 c).arrAt_succ (0 : Fin 1) t₀, if_pos (flush0_0 t₀)]
  exact Memref.write_access_unit_zero_univ (Elt F) main_v1 (funext fun a => Nat.zero_mul _) _ _ (Vals.OUT m c)

end Launch

open Launch

set_option maxRecDepth 20000 in
theorem run_main : θ_run (defs (F := F)) (onTc (τ := τ) (main (F := F))) (s₀ m ρ) (fun r => ∀ c : Dev nD,
      r.2.mem ((c.tc : Thread nD τ).loc main_v1) = Vals.OUT m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := argPts m) (Z := fun _ => iprop(emp))
    (hX := start_intro m ρ) (hin := phi0_intro m ρ) (hout := phi1_exit m ρ)
    (QY := fun c s => s.mem ((c : Thread nD τ).loc main_arg0) = Vals.X m c ∧ s.mem ((c : Thread nD τ).loc main_arg1) = Vals.D m c)
    (hY := fun c s' => by
      unfold argPts
      iintro ⟨⟨Hx, Hd⟩, -, HSI⟩
      icombine HSI Hx gives %hx
      icombine HSI Hd gives %hd
      imodintro
      isplitr; · ipureintro; exact ⟨Buf.eq_of_forall_mem_univ hx, Buf.eq_of_forall_mem_univ hd⟩
      iexact HSI)
    (hQ := fun s h c => ⟨((h c).1 (0 : Fin 1)).trans (finalA_out m ρ c), (h c).2.2.1, (h c).2.2.2⟩)

end Cert.KernelIdeal.Sched

end
-- ==== Proof.Spec.lean ====
import Idealize.ShloMosaic.PureOps.Ideal
import Idealize.ShloMosaic.Lib.ValueIdx

noncomputable section

namespace Cert.Spec

open Idealize.ShloMosaic Idealize.ShloMosaic.ValueIdx

def G (X : Vec Ideal ⟨2, ![2048, 1024]⟩ .f32) (D : Vec Ideal ⟨2, ![2048, 4096]⟩ .f32) : Vec Ideal ⟨2, ![1024, 4096]⟩ .f32 :=
  fun i => show EReal from ∑ k : Fin 2048,
    (show EReal from X (ix2 (n0 := 2048) (n1 := 1024) k (i 0))) * (show EReal from D (ix2 (n0 := 2048) (n1 := 4096) k (i 1)))

end Cert.Spec

end
-- ==== Proof.KernelIdealH.ValueAlgPay.lean ====
import proofs.«901045_g7700000000001046_dist_rsdw_v7x_xy2x2_x_m1024_d1024_f4096_f32_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.ValueAlgPay

open Cert.KernelIdeal Cert.KernelIdeal.Gen
open Idealize.ShloMosaic Idealize.ShloMosaic.ValueIdx Idealize.SL.Sem

theorem transpose_at (v : Vec Ideal S1024x512 .f32) (p : Fin 512) (k : Fin 1024) :
    k0_pay1 (F := Ideal) v (ix2 p k) = v (ix2 k p) := by
  unfold k0_pay1
  exact transpose_apply [1, 0] v Facts₀.transposes_S1024x512_p1_0_S512x1024 (ix2 p k) (ix2 k p) (fun b => match b with
    | ⟨0, _⟩ => rfl
    | ⟨1, _⟩ => rfl)

theorem transpose_at' (v : Vec Ideal S1024x512 .f32) (p : Fin 512) (k : Fin 1024) :
    k0_pay2 (F := Ideal) v (ix2 p k) = v (ix2 k p) := by
  unfold k0_pay2
  exact transpose_apply [1, 0] v Facts₀.transposes_S1024x512_p1_0_S512x1024 (ix2 p k) (ix2 k p) (fun b => match b with
    | ⟨0, _⟩ => rfl
    | ⟨1, _⟩ => rfl)

theorem lhs_0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhs_1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
theorem rhs_0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
theorem rhs_1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

theorem product_at (L : FVec Ideal S512x1024 .f32) (R : FVec Ideal S1024x512 .f32) (p q : Fin 512) :
    matmul dot_S512x1024_S1024x512_S512x512_1_0_0_1_n_n none L R (constant (F := Ideal) S512x512 .f32 0x00000000#32) (ix2 p q)
      = ∑ k : Fin 1024, (show EReal from L (ix2 p k)) * (show EReal from R (ix2 k q)) := by
  simp only [matmul]
  rw [Ideal.matmul_constant_zero_apply, ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 p q) ((contrEquiv1 dot_S512x1024_S1024x512_S512x512_1_0_0_1_n_n 1024 rfl rfl).symm k) = ix2 p k := funext fun a => Fin.ext (by
    match a with
    | ⟨0, _⟩ => exact lhs_0 _ _
    | ⟨1, _⟩ => exact (lhs_1 _ _).trans hk)
  have er : dot_S512x1024_S1024x512_S512x512_1_0_0_1_n_n.rhsIdx (ix2 p q) ((contrEquiv1 dot_S512x1024_S1024x512_S512x512_1_0_0_1_n_n 1024 rfl rfl).symm k) = ix2 k q := funext fun a => Fin.ext (by
    match a with
    | ⟨0, _⟩ => exact (rhs_0 _ _).trans hk
    | ⟨1, _⟩ => exact rhs_1 _ _)
  rw [el, er]

theorem sent_product_at (L : FVec Ideal S512x1024 .f32) (R : Vec Ideal S1024x512 .f32) (p q : Fin 512) :
    (show EReal from k0_pay5 (F := Ideal) L R (ix2 p q))
      = ∑ k : Fin 1024, (show EReal from L (ix2 p k)) * (show EReal from R (ix2 k q)) := by
  unfold k0_pay5
  rw [shapeCast_self]
  exact product_at L R p q

theorem own_product_at (L : FVec Ideal S512x1024 .f32) (R : Vec Ideal S1024x512 .f32) (p q : Fin 512) :
    (show EReal from k0_pay8 (F := Ideal) L R (ix2 p q))
      = ∑ k : Fin 1024, (show EReal from L (ix2 p k)) * (show EReal from R (ix2 k q)) := by
  unfold k0_pay8
  rw [shapeCast_self]
  exact product_at L R p q

theorem chunk_sum_at (a : Vec Ideal S512x128 .f32) (b : Vec Ideal S512x128 .bf16) (i : S512x128.Idx) :
    (show EReal from k0_pay12 (F := Ideal) a b i) = (show EReal from a i) + (show EReal from b i) := rfl

theorem chunk_sum_rounded_at (a : Vec Ideal S512x128 .f32) (b : Vec Ideal S512x128 .bf16) (i : S512x128.Idx) :
    (show EReal from k0_pay13 (F := Ideal) a b i) = (show EReal from a i) + (show EReal from b i) := by
  unfold k0_pay13
  rw [shapeCast_self]
  rfl

theorem widened_at (a : Vec Ideal S512x128 .bf16) (i : S512x128.Idx) :
    (show EReal from k0_pay46 (F := Ideal) a i) = (show EReal from a i) := rfl

end Cert.KernelIdeal.ValueAlgPay

end
-- ==== Proof.KernelIdealH.ValueAlgVals.lean ====
import proofs.«901045_g7700000000001046_dist_rsdw_v7x_xy2x2_x_m1024_d1024_f4096_f32_1_alg».proof.Proof.KernelIdealH.Vals
import proofs.«901045_g7700000000001046_dist_rsdw_v7x_xy2x2_x_m1024_d1024_f4096_f32_1_alg».proof.Proof.KernelIdealH.ValueAlgPay

noncomputable section

namespace Cert.KernelIdeal.ValueAlgVals

open Cert.KernelIdeal Cert.KernelIdeal.Gen Cert.KernelIdeal.Mesh Cert.KernelIdeal.ValueAlgPay
open Idealize.ShloMosaic Idealize.ShloMosaic.TcCoe Idealize.ShloMosaic.ValueIdx Idealize.SL.Sem

def dotAt (A : Vec Ideal S1024x1024 .f32) (B : Vec Ideal S1024x4096 .f32) (a : Fin 1024) (b : Fin 4096) : EReal :=
  ∑ k : Fin 1024, (show EReal from A (ix2 k a)) * (show EReal from B (ix2 k b))

def colO (c : Dev nD) (p : Fin 512) : Fin 1024 :=
  ⟨512 - 512 * (c.val / 2) + p.val, by have h : c.val < 4 := c.isLt; have := p.isLt; omega⟩

def colM (c : Dev nD) (p : Fin 512) : Fin 1024 :=
  ⟨512 * (c.val / 2) + p.val, by have h : c.val < 4 := c.isLt; have := p.isLt; omega⟩

def colD (c : Dev nD) (r : Fin 2048) : Fin 4096 :=
  ⟨2048 * (c.val % 2) + r.val, by have := r.isLt; omega⟩

variable (m : (ℓ : Loc nD τ sig) → Buf (Elt Ideal) ℓ)

def inBlock (b : Fin 4) (q : Fin 512) : Fin 2048 := ⟨512 * b.val + q.val, by have := b.isLt; have := q.isLt; omega⟩
def inChunk (j : Fin 16) (q : Fin 128) : Fin 2048 := ⟨128 * j.val + q.val, by have := j.isLt; have := q.isLt; omega⟩

theorem ps_at (c : Dev nD) (b : Fin 4) (p q : Fin 512) :
    (show EReal from Vals.ps m c b (ix2 p q)) = dotAt (Vals.X m c) (Vals.D m c) (colO c p) (colD c (inBlock b q)) := by
  unfold Vals.ps
  refine (sent_product_at _ _ p q).trans ?_
  refine Finset.sum_congr rfl fun k _ => ?_
  rw [transpose_at]
  refine congrArg₂ (fun (s t : EReal) => s * t) rfl ?_
  show Vals.D m c (ix2 k _) = Vals.D m c (ix2 k _)
  refine congrArg (fun z => Vals.D m c (ix2 k z)) (Fin.ext ?_)
  show 2048 * (c.val % 2) + 512 * b.val + q.val = 2048 * (c.val % 2) + (512 * b.val + q.val)
  omega

theorem pm_at (c : Dev nD) (b : Fin 4) (p q : Fin 512) :
    (show EReal from Vals.pm m c b (ix2 p q)) = dotAt (Vals.X m c) (Vals.D m c) (colM c p) (colD c (inBlock b q)) := by
  unfold Vals.pm
  refine (own_product_at _ _ p q).trans ?_
  refine Finset.sum_congr rfl fun k _ => ?_
  rw [transpose_at']
  refine congrArg₂ (fun (s t : EReal) => s * t) rfl ?_
  show Vals.D m c (ix2 k _) = Vals.D m c (ix2 k _)
  refine congrArg (fun z => Vals.D m c (ix2 k z)) (Fin.ext ?_)
  show 2048 * (c.val % 2) + 512 * b.val + q.val = 2048 * (c.val % 2) + (512 * b.val + q.val)
  omega

theorem PS_at (c : Dev nD) (p : Fin 512) (r : Fin 2048) :
    (show EReal from Vals.PS m c (ix2 p r)) = dotAt (Vals.X m c) (Vals.D m c) (colO c p) (colD c r) := by
  unfold Vals.PS Vals.glue
  refine (ps_at m c _ p _).trans ?_
  refine congrArg (fun z => dotAt (Vals.X m c) (Vals.D m c) (colO c p) (colD c z)) (Fin.ext ?_)
  show 512 * (r.val / 512) + r.val % 512 = r.val
  omega

theorem PM_at (c : Dev nD) (p : Fin 512) (r : Fin 2048) :
    (show EReal from Vals.PM m c (ix2 p r)) = dotAt (Vals.X m c) (Vals.D m c) (colM c p) (colD c r) := by
  unfold Vals.PM Vals.glue
  refine (pm_at m c _ p _).trans ?_
  refine congrArg (fun z => dotAt (Vals.X m c) (Vals.D m c) (colM c p) (colD c z)) (Fin.ext ?_)
  show 512 * (r.val / 512) + r.val % 512 = r.val
  omega

def rowSum (c : Dev nD) (p : Fin 512) (r : Fin 2048) : EReal :=
  dotAt (Vals.X m c) (Vals.D m c) (colM c p) (colD c r)
    + dotAt (Vals.X m (xn c)) (Vals.D m (xn c)) (colO (xn c) p) (colD (xn c) r)

theorem sC_at (c : Dev nD) (j : Fin 16) (p : Fin 512) (q : Fin 128) :
    (show EReal from Vals.sC m c j (ix2 p q)) = rowSum m c p (inChunk j q) := by
  unfold Vals.sC
  refine (chunk_sum_at _ _ _).trans ?_
  unfold rowSum
  exact congrArg₂ (fun (s t : EReal) => s + t) (PM_at m c p (inChunk j q)) (PS_at m (xn c) p (inChunk j q))

theorem ysC_at (c : Dev nD) (j : Fin 16) (p : Fin 512) (q : Fin 128) :
    (show EReal from Vals.ysC m c j (ix2 p q)) = rowSum m c p (inChunk j q) := by
  unfold Vals.ysC
  refine (chunk_sum_rounded_at _ _ _).trans ?_
  unfold rowSum
  exact congrArg₂ (fun (s t : EReal) => s + t) (PM_at m c p (inChunk j q)) (PS_at m (xn c) p (inChunk j q))

theorem own_at (c : Dev nD) (p : Fin 512) (r : Fin 2048) :
    (show EReal from Vals.own m c (ix2 p r)) = rowSum m c p r := by
  unfold Vals.own Vals.glue
  refine (sC_at m c _ p _).trans ?_
  refine congrArg (fun z => rowSum m c p z) (Fin.ext ?_)
  show 128 * (r.val / 128) + r.val % 128 = r.val
  omega

theorem YS_at (c : Dev nD) (p : Fin 512) (r : Fin 2048) :
    (show EReal from Vals.YS m c (ix2 p r)) = rowSum m c p r := by
  unfold Vals.YS Vals.glue
  refine (ysC_at m c _ p _).trans ?_
  refine congrArg (fun z => rowSum m c p z) (Fin.ext ?_)
  show 128 * (r.val / 128) + r.val % 128 = r.val
  omega

theorem oC_at (c : Dev nD) (j : Fin 16) (p : Fin 512) (q : Fin 128) :
    (show EReal from Vals.oC m c j (ix2 p q)) = rowSum m (yn c) p (inChunk j q) := by
  unfold Vals.oC
  refine (widened_at _ _).trans ?_
  exact YS_at m (yn c) p (inChunk j q)

theorem oth_at (c : Dev nD) (p : Fin 512) (r : Fin 2048) :
    (show EReal from Vals.oth m c (ix2 p r)) = rowSum m (yn c) p r := by
  unfold Vals.oth Vals.glue
  refine (oC_at m c _ p _).trans ?_
  refine congrArg (fun z => rowSum m (yn c) p z) (Fin.ext ?_)
  show 128 * (r.val / 128) + r.val % 128 = r.val
  omega

def inHalf (col : Fin 4096) : Fin 2048 := ⟨col.val % 2048, Nat.mod_lt _ (by decide)⟩

theorem OUT_at (c : Dev nD) (p : Fin 512) (col : Fin 4096) :
    (show EReal from Vals.OUT m c (ix2 p col))
      = if col.val / 2048 = c.val % 2 then rowSum m c p (inHalf col) else rowSum m (yn c) p (inHalf col) := by
  unfold Vals.OUT
  show (if col.val / 2048 = c.val % 2 then (show EReal from Vals.own m c (ix2 p (inHalf col)))
    else (show EReal from Vals.oth m c (ix2 p (inHalf col)))) = _
  rw [own_at, oth_at]

end Cert.KernelIdeal.ValueAlgVals

end
-- ==== Proof.KernelIdealH.ValueAlgBlock.lean ====
import proofs.«901045_g7700000000001046_dist_rsdw_v7x_xy2x2_x_m1024_d1024_f4096_f32_1_alg».proof.Proof.KernelIdealH.Mesh
import Idealize.ShloMosaic.Lib.Layout
import Idealize.ShloMosaic.Lib.ValueIdx

noncomputable section

namespace Cert.KernelIdeal.ValueAlgBlock

open Cert.KernelIdeal Cert.KernelIdeal.Gen Cert.KernelIdeal.Mesh
open Idealize.ShloMosaic Idealize.ShloMosaic.ValueIdx Idealize.SL.Sem

theorem rowBlock_val (c : Dev nD) : ((Layout.meshBlock [2, 2] ![[0], []] c) 0).val = c.val / 2 := by
  revert c; decide
theorem colBlock_val (c : Dev nD) : ((Layout.meshBlock [2, 2] ![[0], []] c) 1).val = 0 := by
  revert c; decide

theorem block_at {α : Type} {R C R2 : Nat} (c : Dev nD) (v : (⟨2, ![R2, C]⟩ : Shape).Idx → α)
    (h : Layout.TilesN ⟨2, ![R, C]⟩ ⟨2, ![R2, C]⟩ _) (r : Fin R) (q : Fin C) (hlt : R * (c.val / 2) + r.val < R2) :
    Layout.blockN ⟨2, ![R, C]⟩ ⟨2, ![R2, C]⟩ (Layout.meshBlock [2, 2] ![[0], []] c) v h (ix2 r q)
      = v (ix2 ⟨R * (c.val / 2) + r.val, hlt⟩ q) := by
  rw [Layout.blockN_apply]
  refine congrArg v (funext fun a => Fin.ext ?_)
  match a with
  | ⟨0, _⟩ =>
    show ((Layout.meshBlock [2, 2] ![[0], []] c) 0).val * R + r.val = R * (c.val / 2) + r.val
    rw [rowBlock_val, Nat.mul_comm]
  | ⟨1, _⟩ =>
    show ((Layout.meshBlock [2, 2] ![[0], []] c) 1).val * C + q.val = q.val
    rw [colBlock_val, Nat.zero_mul, Nat.zero_add]

end Cert.KernelIdeal.ValueAlgBlock

end
-- ==== Proof.KernelIdealH.ValueAlgSum.lean ====
import proofs.«901045_g7700000000001046_dist_rsdw_v7x_xy2x2_x_m1024_d1024_f4096_f32_1_alg».proof.Proof.Spec
import Mathlib.Algebra.BigOperators.Fin

noncomputable section

namespace Cert.KernelIdeal.ValueAlgSum

open Idealize.ShloMosaic Idealize.ShloMosaic.ValueIdx

def rowOf (x : Fin 2) (k : Fin 1024) : Fin 2048 := ⟨1024 * x.val + k.val, by have := x.isLt; have := k.isLt; omega⟩

def part (X : Vec Ideal ⟨2, ![2048, 1024]⟩ .f32) (D : Vec Ideal ⟨2, ![2048, 4096]⟩ .f32) (x : Fin 2) (a : Fin 1024) (b : Fin 4096) : EReal :=
  ∑ k : Fin 1024, (show EReal from X (ix2 (rowOf x k) a)) * (show EReal from D (ix2 (rowOf x k) b))

theorem sum_halves (f : Fin 2048 → EReal) :
    ∑ k : Fin 2048, f k = ∑ k : Fin 1024, f (rowOf 0 k) + ∑ k : Fin 1024, f (rowOf 1 k) := by
  refine (Fin.sum_univ_add (a := 1024) (b := 1024) f).trans ?_
  refine congrArg₂ (fun (s t : EReal) => s + t) (Finset.sum_congr rfl fun k _ => ?_) (Finset.sum_congr rfl fun k _ => ?_)
  · exact congrArg f (Fin.ext (by show k.val = 1024 * 0 + k.val; omega))
  · exact congrArg f (Fin.ext (by show 1024 + k.val = 1024 * 1 + k.val; omega))

theorem G_split (X : Vec Ideal ⟨2, ![2048, 1024]⟩ .f32) (D : Vec Ideal ⟨2, ![2048, 4096]⟩ .f32) (a : Fin 1024) (b : Fin 4096) :
    (show EReal from Cert.Spec.G X D (ix2 a b)) = part X D 0 a b + part X D 1 a b :=
  sum_halves fun k => (show EReal from X (ix2 k a)) * (show EReal from D (ix2 k b))

end Cert.KernelIdeal.ValueAlgSum

end
-- ==== Proof.KernelIdealH.ValueAlg.lean ====
import proofs.«901045_g7700000000001046_dist_rsdw_v7x_xy2x2_x_m1024_d1024_f4096_f32_1_alg».proof.Proof.KernelIdealH.Vals
import proofs.«901045_g7700000000001046_dist_rsdw_v7x_xy2x2_x_m1024_d1024_f4096_f32_1_alg».proof.Proof.Spec
import proofs.«901045_g7700000000001046_dist_rsdw_v7x_xy2x2_x_m1024_d1024_f4096_f32_1_alg».proof.Proof.KernelIdealH.ValueAlgVals
import proofs.«901045_g7700000000001046_dist_rsdw_v7x_xy2x2_x_m1024_d1024_f4096_f32_1_alg».proof.Proof.KernelIdealH.ValueAlgBlock
import proofs.«901045_g7700000000001046_dist_rsdw_v7x_xy2x2_x_m1024_d1024_f4096_f32_1_alg».proof.Proof.KernelIdealH.ValueAlgSum
import Idealize.ShloMosaic.Lib.Layout
import Idealize.ShloMosaic.PureOps.Ideal

noncomputable section

namespace Cert.KernelIdeal.ValueAlg

open Cert.KernelIdeal Cert.KernelIdeal.Gen Cert.KernelIdeal.Mesh
open Cert.KernelIdeal.ValueAlgVals Cert.KernelIdeal.ValueAlgBlock Cert.KernelIdeal.ValueAlgSum
open Idealize.ShloMosaic Idealize.ShloMosaic.TcCoe Idealize.ShloMosaic.ValueIdx Idealize.SL.Sem

theorem xn_div (c : Dev nD) : (xn c).val / 2 = 1 - c.val / 2 := by revert c; decide
theorem xn_mod (c : Dev nD) : (xn c).val % 2 = c.val % 2 := by revert c; decide
theorem yn_div (c : Dev nD) : (yn c).val / 2 = c.val / 2 := by revert c; decide
theorem yn_mod (c : Dev nD) : (yn c).val % 2 = 1 - c.val % 2 := by revert c; decide

theorem cx_cases (c : Dev nD) : (cx c = 0 ∧ cx (xn c) = 1) ∨ (cx c = 1 ∧ cx (xn c) = 0) := by revert c; decide

section

variable (m : (ℓ : Loc nD τ sig) → Buf (Elt Ideal) ℓ)
  (X : Vec Ideal ⟨2, ![2048, 1024]⟩ .f32) (D : Vec Ideal ⟨2, ![2048, 4096]⟩ .f32)
  (hagree : ∀ c : Dev nD,
    m ((c.tc : Thread nD τ).loc main_arg0) = Layout.blockN ⟨2, ![1024, 1024]⟩ ⟨2, ![2048, 1024]⟩ (Layout.meshBlock [2, 2] ![[0], []] c) X
    ∧ m ((c.tc : Thread nD τ).loc main_arg1) = Layout.blockN ⟨2, ![1024, 4096]⟩ ⟨2, ![2048, 4096]⟩ (Layout.meshBlock [2, 2] ![[0], []] c) D)

include hagree

theorem dot_block (c : Dev nD) (a : Fin 1024) (b : Fin 4096) :
    dotAt (Vals.X m c) (Vals.D m c) a b = part X D (cx c) a b := by
  have hX : Vals.X m c = Layout.blockN ⟨2, ![1024, 1024]⟩ ⟨2, ![2048, 1024]⟩ (Layout.meshBlock [2, 2] ![[0], []] c) X := (hagree c).1
  have hD : Vals.D m c = Layout.blockN ⟨2, ![1024, 4096]⟩ ⟨2, ![2048, 4096]⟩ (Layout.meshBlock [2, 2] ![[0], []] c) D := (hagree c).2
  rw [hX, hD]
  unfold dotAt part
  refine Finset.sum_congr rfl fun k _ => ?_
  have hlt : 1024 * (c.val / 2) + k.val < 2048 := by have h : c.val < 4 := c.isLt; have := k.isLt; omega
  rw [block_at (R := 1024) (C := 1024) (R2 := 2048) c X _ k a hlt, block_at (R := 1024) (C := 4096) (R2 := 2048) c D _ k b hlt]
  rfl

theorem rowSum_eq (c : Dev nD) (p : Fin 512) (r : Fin 2048) (a : Fin 1024) (col : Fin 4096)
    (ha : a.val = 512 * (c.val / 2) + p.val) (hcol : col.val = 2048 * (c.val % 2) + r.val) :
    rowSum m c p r = part X D 0 a col + part X D 1 a col := by
  have hc : c.val < 4 := c.isLt
  have e1 : colM c p = a := Fin.ext (by show 512 * (c.val / 2) + p.val = a.val; omega)
  have e2 : colD c r = col := Fin.ext (by show 2048 * (c.val % 2) + r.val = col.val; omega)
  have e3 : colO (xn c) p = a := Fin.ext (by show 512 - 512 * ((xn c).val / 2) + p.val = a.val; rw [xn_div]; omega)
  have e4 : colD (xn c) r = col := Fin.ext (by show 2048 * ((xn c).val % 2) + r.val = col.val; rw [xn_mod]; omega)
  unfold rowSum
  rw [dot_block m X D hagree c, dot_block m X D hagree (xn c), e1, e2, e3, e4]
  rcases cx_cases c with ⟨h0, h1⟩ | ⟨h0, h1⟩
  · rw [h0, h1]
  · rw [h0, h1]; exact add_comm (G := EReal) _ _

end

theorem OUT_eq_block
    (m : (ℓ : Loc nD τ sig) → Buf (Elt Ideal) ℓ)
    (X : Vec Ideal ⟨2, ![2048, 1024]⟩ .f32) (D : Vec Ideal ⟨2, ![2048, 4096]⟩ .f32)
    (hagree : ∀ c : Dev nD,
      m ((c.tc : Thread nD τ).loc main_arg0) = Layout.blockN ⟨2, ![1024, 1024]⟩ ⟨2, ![2048, 1024]⟩ (Layout.meshBlock [2, 2] ![[0], []] c) X
      ∧ m ((c.tc : Thread nD τ).loc main_arg1) = Layout.blockN ⟨2, ![1024, 4096]⟩ ⟨2, ![2048, 4096]⟩ (Layout.meshBlock [2, 2] ![[0], []] c) D)
    (c : Dev nD) :
    Vals.OUT (F := Ideal) m c
      = Layout.blockN ⟨2, ![512, 4096]⟩ ⟨2, ![1024, 4096]⟩ (Layout.meshBlock [2, 2] ![[0], []] c) (Cert.Spec.G X D) := by
  funext i
  obtain ⟨p, col, rfl⟩ : ∃ (p : Fin 512) (col : Fin 4096), i = ix2 p col := ⟨i 0, i 1, eq_ix2 i⟩
  have hc : c.val < 4 := c.isLt
  have hlt : 512 * (c.val / 2) + p.val < 1024 := by have := p.isLt; omega
  rw [block_at (R := 512) (C := 4096) (R2 := 1024) c (Cert.Spec.G X D) _ p col hlt]
  refine (OUT_at m c p col).trans ?_
  refine Eq.trans ?_ (G_split X D ⟨512 * (c.val / 2) + p.val, hlt⟩ col).symm
  have hcol : col.val < 4096 := col.isLt
  split_ifs with h
  · exact rowSum_eq m X D hagree c p (inHalf col) _ col rfl
      (by show col.val = 2048 * (c.val % 2) + col.val % 2048; omega)
  · exact rowSum_eq m X D hagree (yn c) p (inHalf col) _ col
      (by show 512 * (c.val / 2) + p.val = 512 * ((yn c).val / 2) + p.val; rw [yn_div])
      (by show col.val = 2048 * ((yn c).val % 2) + col.val % 2048; rw [yn_mod]; omega)

end Cert.KernelIdeal.ValueAlg

end
-- ==== Proof.ReferenceIdealH.RefRun.lean ====
import proofs.«901045_g7700000000001046_dist_rsdw_v7x_xy2x2_x_m1024_d1024_f4096_f32_1_alg».proof.Defs
import proofs.«901045_g7700000000001046_dist_rsdw_v7x_xy2x2_x_m1024_d1024_f4096_f32_1_alg».proof.Proof.Gen.ReferenceIdeal
import proofs.«901045_g7700000000001046_dist_rsdw_v7x_xy2x2_x_m1024_d1024_f4096_f32_1_alg».proof.Proof.Gen.Pre_finite_inputs_ReferenceIdeal
import proofs.«901045_g7700000000001046_dist_rsdw_v7x_xy2x2_x_m1024_d1024_f4096_f32_1_alg».proof.Proof.Spec
import proofs.«901045_g7700000000001046_dist_rsdw_v7x_xy2x2_x_m1024_d1024_f4096_f32_1_alg».proof.Proof.Gen.ReferenceIdeal.Run
import proofs.«901045_g7700000000001046_dist_rsdw_v7x_xy2x2_x_m1024_d1024_f4096_f32_1_alg».proof.Proof.Gen.ReferenceIdeal.Read

noncomputable section

namespace Cert.ReferenceIdeal.RefRun

open Cert.ReferenceIdeal
open Idealize.ShloMosaic Idealize.ShloMosaic.TcCoe Idealize.SL.Sem Idealize.ShloMosaic.ValueIdx

theorem lhs_index (i : S1024x4096.Idx) (k : Fin 2048) :
    Read.idx_main_v0 (Read.lidx_main_v1 i k) = ix2 (n0 := 2048) (n1 := 1024) k (i 0) :=
  funext fun a => Fin.ext (by match a with | ⟨0, _⟩ => rfl | ⟨1, _⟩ => rfl)

theorem rhs_index (i : S1024x4096.Idx) (k : Fin 2048) :
    Read.ridx_main_v1 i k = ix2 (n0 := 2048) (n1 := 4096) k (i 1) :=
  funext fun a => Fin.ext (by match a with | ⟨0, _⟩ => rfl | ⟨1, _⟩ => rfl)

theorem result_eq (X : (⟨S2048x1024, .f32⟩ : BufTy).Contents (Elt Ideal))
    (D : (⟨S2048x4096, .f32⟩ : BufTy).Contents (Elt Ideal)) :
    Read.val_main_v1 (F := Ideal) X D = Cert.Spec.G X D := by
  funext i
  rw [Read.val_main_v1_apply]
  refine Finset.sum_congr rfl fun k _ => ?_
  rw [Read.val_main_v0_apply, lhs_index, rhs_index]

theorem run (m' : (ℓ : Loc nD τ sig) → Buf (Elt Ideal) ℓ) (ρ' : Dev nD → PrngReg) :
    θ_run (Cert.ReferenceIdeal.defs (F := Ideal)) (onTc (τ := τ) (main (F := Ideal))) ⟨m', fun _ => 0, ρ'⟩ (fun r =>
      r.2.mem (((0 : Dev nD).tc : Thread nD τ).loc main_v1)
          = Cert.Spec.G (m' (((0 : Dev nD).tc : Thread nD τ).loc main_arg0)) (m' (((0 : Dev nD).tc : Thread nD τ).loc main_arg1))
      ∧ r.2.mem (((0 : Dev nD).tc : Thread nD τ).loc main_arg0) = m' (((0 : Dev nD).tc : Thread nD τ).loc main_arg0)
      ∧ r.2.mem (((0 : Dev nD).tc : Thread nD τ).loc main_arg1) = m' (((0 : Dev nD).tc : Thread nD τ).loc main_arg1)) :=
  (θ_run (Cert.ReferenceIdeal.defs (F := Ideal)) _ _).mono
    (fun _ h => ⟨((h 0).1.trans (Read.val_main_v1_eq _ _)).trans (result_eq _ _), (h 0).2⟩)
    (Cert.ReferenceIdeal.Value.run (F := Ideal) m' ρ')

theorem frame : Cert.frame_ReferenceIdeal (hReferenceIdeal := Cert.ReferenceIdeal.Gen.facts)
    (hPre_finite_inputs_ReferenceIdeal := Cert.Pre_finite_inputs_ReferenceIdeal.Gen.facts) := fun m ρ _ =>
  (θ_run (Cert.ReferenceIdeal.defs (F := Ideal)) _ _).mono (fun _ h c => (h c).2)
    (Cert.ReferenceIdeal.Value.run (F := Ideal) m ρ)

end Cert.ReferenceIdeal.RefRun

end
-- ==== Proof.KernelIdealH.Claims.lean ====
import proofs.«901045_g7700000000001046_dist_rsdw_v7x_xy2x2_x_m1024_d1024_f4096_f32_1_alg».proof.Defs
import proofs.«901045_g7700000000001046_dist_rsdw_v7x_xy2x2_x_m1024_d1024_f4096_f32_1_alg».proof.Proof.KernelIdealH.Launch
import proofs.«901045_g7700000000001046_dist_rsdw_v7x_xy2x2_x_m1024_d1024_f4096_f32_1_alg».proof.Proof.KernelIdealH.ValueAlg
import proofs.«901045_g7700000000001046_dist_rsdw_v7x_xy2x2_x_m1024_d1024_f4096_f32_1_alg».proof.Proof.ReferenceIdealH.RefRun
import proofs.«901045_g7700000000001046_dist_rsdw_v7x_xy2x2_x_m1024_d1024_f4096_f32_1_alg».proof.Proof.Gen.Kernel
import proofs.«901045_g7700000000001046_dist_rsdw_v7x_xy2x2_x_m1024_d1024_f4096_f32_1_alg».proof.Proof.Gen.Pre_finite_inputs_Kernel

noncomputable section

namespace Cert.Proof.Claims

open Idealize.ShloMosaic Idealize.SL.Sem

-- The kernel and its idealization are the same program: their body tables agree label by label.
theorem defs₀_eq : Cert.Kernel.defs₀ (F := Bits) = Cert.KernelIdeal.defs₀ (F := Bits) := by
  unfold Cert.Kernel.defs₀ Cert.KernelIdeal.defs₀
  congr 1
  funext lbl args
  match lbl, args with
  | 0, _ => rfl
  | ⟨_ + 1, h⟩, _ => exact absurd h (by omega)

theorem defs_eq : Cert.Kernel.defs (F := Bits) = Cert.KernelIdeal.defs (F := Bits) :=
  congrArg (Pipeline.defs Cert.KernelIdeal.pcfgs) defs₀_eq

-- The run is proved once, for any float instance; at the bit-exact one it is the kernel's own run.
theorem frame_k : Cert.frame_Kernel (hKernel := Cert.Kernel.Gen.facts)
    (hPre_finite_inputs_Kernel := Cert.Pre_finite_inputs_Kernel.Gen.facts) := fun m ρ _ => by
  rw [defs_eq]
  exact (θ_run (Cert.KernelIdeal.defs (F := Bits)) _ _).mono (fun _ h c => ⟨(h c).2.1, (h c).2.2⟩)
    (Cert.KernelIdeal.Sched.run_main (F := Bits) m ρ)

theorem frame_ki : Cert.frame_KernelIdeal (hKernelIdeal := Cert.KernelIdeal.Gen.facts)
    (hPre_finite_inputs_Kernel := Cert.Pre_finite_inputs_Kernel.Gen.facts) := fun m ρ _ =>
  (θ_run (Cert.KernelIdeal.defs (F := Ideal)) _ _).mono (fun _ h c => ⟨(h c).2.1, (h c).2.2⟩)
    (Cert.KernelIdeal.Sched.run_main (F := Ideal) m ρ)

theorem frame_ri : Cert.frame_ReferenceIdeal (hReferenceIdeal := Cert.ReferenceIdeal.Gen.facts)
    (hPre_finite_inputs_ReferenceIdeal := Cert.Pre_finite_inputs_ReferenceIdeal.Gen.facts) :=
  Cert.ReferenceIdeal.RefRun.frame

theorem preserves : Cert.preserves_Kernel_KernelIdeal := trivial

-- Both sides end at the same array: the transpose of the first whole argument times the second.
theorem algebraic : Cert.algebraic_KernelIdeal_ReferenceIdeal (hKernelIdeal := Cert.KernelIdeal.Gen.facts)
    (hReferenceIdeal := Cert.ReferenceIdeal.Gen.facts)
    (hPre_finite_inputs_Kernel := Cert.Pre_finite_inputs_Kernel.Gen.facts) := by
  intro m ρ m' ρ' _ hagree
  refine ⟨Cert.Spec.G
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    ?_, Cert.ReferenceIdeal.RefRun.run m' ρ'⟩
  exact (θ_run (Cert.KernelIdeal.defs (F := Ideal)) _ _).mono
    (fun _ h c => ⟨(h c).1.trans (Cert.KernelIdeal.ValueAlg.OUT_eq_block m _ _ hagree c), (h c).2.1, (h c).2.2⟩)
    (Cert.KernelIdeal.Sched.run_main (F := Ideal) m ρ)

end Cert.Proof.Claims

end
-- ==== Proof.lean ====
import proofs.«901045_g7700000000001046_dist_rsdw_v7x_xy2x2_x_m1024_d1024_f4096_f32_1_alg».proof.Defs
import proofs.«901045_g7700000000001046_dist_rsdw_v7x_xy2x2_x_m1024_d1024_f4096_f32_1_alg».proof.Proof.Gen.Kernel
import proofs.«901045_g7700000000001046_dist_rsdw_v7x_xy2x2_x_m1024_d1024_f4096_f32_1_alg».proof.Proof.Gen.KernelIdeal
import proofs.«901045_g7700000000001046_dist_rsdw_v7x_xy2x2_x_m1024_d1024_f4096_f32_1_alg».proof.Proof.Gen.ReferenceIdeal
import proofs.«901045_g7700000000001046_dist_rsdw_v7x_xy2x2_x_m1024_d1024_f4096_f32_1_alg».proof.Proof.Gen.Pre_finite_inputs_Kernel
import proofs.«901045_g7700000000001046_dist_rsdw_v7x_xy2x2_x_m1024_d1024_f4096_f32_1_alg».proof.Proof.Gen.Pre_finite_inputs_ReferenceIdeal
import proofs.«901045_g7700000000001046_dist_rsdw_v7x_xy2x2_x_m1024_d1024_f4096_f32_1_alg».proof.Proof.KernelIdealH.Claims

noncomputable section

namespace Cert.Proof

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Claims.frame_k, Claims.frame_ki, Claims.frame_ri, Claims.preserves, Claims.algebraic⟩

end Cert.Proof

end
